-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x32 : Shape := ⟨2, ![600000, 32]⟩
abbrev S1x128 : Shape := ⟨2, ![1, 128]⟩
abbrev S600000 : Shape := ⟨1, ![600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x32 : S_.BroadcastsInDim S600000x32 (![] : Fin 0 → Fin S600000x32.rank)
  reducesTo_S600000x32_S_d0_1 : S600000x32.ReducesTo [0, 1] S_
  bcast_S_S1x128 : S_.BroadcastsInDim S1x128 (![] : Fin 0 → Fin S1x128.rank)
  reducesTo_S1x128_S_d0_1 : S1x128.ReducesTo [0, 1] S_
  bcast_S_S600000 : S_.BroadcastsInDim S600000 (![] : Fin 0 → Fin S600000.rank)
  reducesTo_S600000_S_d0 : S600000.ReducesTo [0] S_

variable [Facts]

def fn_part1 {F : FTy → Type} [FloatOps F] (main_arg3 : IVec S600000 32) (main_v13 : IVec S_ 1) (main_v15 : IVec S600000 1) (main_c_5 : IVec S_ 1) : IVec S_ 1 :=
  let main_v16 : IVec S_ 1 := (fun x v => Host.reduce IntOp.andi x v reducesTo_S600000_S_d0 h_S_) main_v15 main_c_5
  let main_v17 : IVec S_ 1 := andi main_v13 main_v16
  let main_c_6 : IVec S_ 32 := constantI S_ 32 50000#32
  let main_v18 : IVec S600000 32 := broadcastInDim S600000 ![] bcast_S_S600000 main_c_6
  let main_v19 : IVec S600000 1 := cmpi .slt main_arg3 main_v18
  let main_c_7 : IVec S_ 1 := constantI S_ 1 1#1
  let main_v20 : IVec S_ 1 := (fun x v => Host.reduce IntOp.andi x v reducesTo_S600000_S_d0 h_S_) main_v19 main_c_7
  let main_v21 : IVec S_ 1 := andi main_v17 main_v20
  main_v21

def fn {F : FTy → Type} [FloatOps F] (main_arg0 : FVec F S50000x128 .f32) (main_arg1 : FVec F S600000x32 .f32) (main_arg2 : FVec F S1x128 .f32) (main_arg3 : IVec S600000 32) (main_arg4 : IVec S600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x32 .f32 := Host.absf main_arg1
  let main_cst_0 : FVec F S_ .f32 := constant S_ .f32 0x7F800000#32
  let main_v5 : FVec F S600000x32 .f32 := broadcastInDim S600000x32 ![] bcast_S_S600000x32 main_cst_0
  let main_v6 : IVec S600000x32 1 := cmpf .olt main_v4 main_v5
  let main_c_1 : IVec S_ 1 := constantI S_ 1 1#1
  let main_v7 : IVec S_ 1 := (fun x v => Host.reduce IntOp.andi x v reducesTo_S600000x32_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_c_4 : IVec S_ 32 := constantI S_ 32 0#32
  let main_v14 : IVec S600000 32 := broadcastInDim S600000 ![] bcast_S_S600000 main_c_4
  let main_v15 : IVec S600000 1 := cmpi .sge main_arg3 main_v14
  let main_c_5 : IVec S_ 1 := constantI S_ 1 1#1
  fn_part1 (F := F) main_arg3 main_v13 main_v15 main_c_5
-- ==== Kernel.lean ====
abbrev S50000x128 : Shape := ⟨2, ![50000, 128]⟩
abbrev S600000x32 : Shape := ⟨2, ![600000, 32]⟩
abbrev S1x128 : Shape := ⟨2, ![1, 128]⟩
abbrev S600000 : Shape := ⟨1, ![600000]⟩
abbrev S_ : Shape := ⟨0, ![]⟩
abbrev S51200x128 : Shape := ⟨2, ![51200, 128]⟩
abbrev S600000x1 : Shape := ⟨2, ![600000, 1]⟩
abbrev S640000x1 : Shape := ⟨2, ![640000, 1]⟩
abbrev S1x600000 : Shape := ⟨2, ![1, 600000]⟩
abbrev S1x640000 : Shape := ⟨2, ![1, 640000]⟩
abbrev S640000x32 : Shape := ⟨2, ![640000, 32]⟩
abbrev S640000x128 : Shape := ⟨2, ![640000, 128]⟩
abbrev S2560x1 : Shape := ⟨2, ![2560, 1]⟩
abbrev S3200x128 : Shape := ⟨2, ![3200, 128]⟩
abbrev S2560x128 : Shape := ⟨2, ![2560, 128]⟩
abbrev S2560x3200 : Shape := ⟨2, ![2560, 3200]⟩
abbrev S50000x32 : Shape := ⟨2, ![50000, 32]⟩
abbrev S1x3200 : Shape := ⟨2, ![1, 3200]⟩
abbrev S3200x32 : Shape := ⟨2, ![3200, 32]⟩
abbrev S2000x128 : Shape := ⟨2, ![2000, 128]⟩
abbrev S2000x32 : Shape := ⟨2, ![2000, 32]⟩
abbrev S2000x3200 : Shape := ⟨2, ![2000, 3200]⟩
abbrev S50000x160 : Shape := ⟨2, ![50000, 160]⟩

abbrev nBuf : Space → Nat
  | .hbm => 24
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S600000x32, .f32⟩
  | .hbm, ⟨2, _⟩ => ⟨S1x128, .f32⟩
  | .hbm, ⟨3, _⟩ => ⟨S600000, .i32⟩
  | .hbm, ⟨4, _⟩ => ⟨S600000, .i32⟩
  | .hbm, ⟨5, _⟩ => ⟨S_, .i32⟩
  | .hbm, ⟨6, _⟩ => ⟨S_, .f32⟩
  | .hbm, ⟨7, _⟩ => ⟨S51200x128, .f32⟩
  | .hbm, ⟨8, _⟩ => ⟨S51200x128, .bf16⟩
  | .hbm, ⟨9, _⟩ => ⟨S600000x1, .i32⟩
  | .hbm, ⟨10, _⟩ => ⟨S_, .i32⟩
  | .hbm, ⟨11, _⟩ => ⟨S_, .i32⟩
  | .hbm, ⟨12, _⟩ => ⟨S640000x1, .i32⟩
  | .hbm, ⟨13, _⟩ => ⟨S1x600000, .i32⟩
  | .hbm, ⟨14, _⟩ => ⟨S_, .i32⟩
  | .hbm, ⟨15, _⟩ => ⟨S_, .i32⟩
  | .hbm, ⟨16, _⟩ => ⟨S1x640000, .i32⟩
  | .hbm, ⟨17, _⟩ => ⟨S_, .i32⟩
  | .hbm, ⟨18, _⟩ => ⟨S_, .f32⟩
  | .hbm, ⟨19, _⟩ => ⟨S640000x32, .f32⟩
  | .hbm, ⟨20, _⟩ => ⟨S640000x128, .bf16⟩
  | .hbm, ⟨21, _⟩ => ⟨S50000x128, .f32⟩
  | .hbm, ⟨22, _⟩ => ⟨S50000x32, .f32⟩
  | .hbm, ⟨23, _⟩ => ⟨S50000x160, .f32⟩
  | .local _ .vmem, ⟨0, _⟩ => ⟨S2560x1, .i32⟩
  | .local _ .vmem, ⟨1, _⟩ => ⟨S2560x1, .i32⟩
  | .local _ .vmem, ⟨2, _⟩ => ⟨S3200x128, .bf16⟩
  | .local _ .vmem, ⟨3, _⟩ => ⟨S3200x128, .bf16⟩
  | .local _ .vmem, ⟨4, _⟩ => ⟨S2560x128, .bf16⟩
  | .local _ .vmem, ⟨5, _⟩ => ⟨S2560x128, .bf16⟩
  | .local _ .vmem, ⟨6, _⟩ => ⟨S2560x128, .f32⟩
  | .local _ .vmem, ⟨7, _⟩ => ⟨S1x3200, .i32⟩
  | .local _ .vmem, ⟨8, _⟩ => ⟨S1x3200, .i32⟩
  | .local _ .vmem, ⟨9, _⟩ => ⟨S3200x128, .bf16⟩
  | .local _ .vmem, ⟨10, _⟩ => ⟨S3200x128, .bf16⟩
  | .local _ .vmem, ⟨11, _⟩ => ⟨S3200x32, .f32⟩
  | .local _ .vmem, ⟨12, _⟩ => ⟨S3200x32, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x32, .f32⟩
  | .local _ .vmem, ⟨17, _⟩ => ⟨S2000x32, .f32⟩
  | .local _ .vmem, ⟨18, _⟩ => ⟨S2000x128, .f32⟩
  | .local _ .vmem, ⟨19, _⟩ => ⟨S2000x32, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_call2_v0 : Ref sig .tc := ⟨.hbm, 15, rfl⟩
abbrev main_v5 : Ref sig .tc := ⟨.hbm, 16, rfl⟩
abbrev main_c_2 : Ref sig .tc := ⟨.hbm, 17, rfl⟩
abbrev main_call3_v0 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v9 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg5_1 : Ref sig .tc := ⟨.vmem, 17, rfl⟩
abbrev cc1_scratch0 : Ref sig .tc := ⟨.vmem, 18, rfl⟩
abbrev cc1_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16

abbrev nD : Nat := 1
abbrev τ : Topo := Topo.v7x

variable {F : FTy → Type} [FloatOps F]

abbrev grid0 : Pipeline.Grid := ⟨2, ![250, 16], ![false, false]⟩

def k0_cond2 (i : grid0.Coords) : BitVec 1 :=
  let arg1 : BitVec 32 := BitVec.ofNat 32 (i 1).val
  let c15_i32 : BitVec 32 := 15#32
  let v22 : BitVec 1 := Scalar.cmpi .eq arg1 c15_i32
  let v23 : BitVec 32 := Scalar.extui v22
  let c0_i32_8 : BitVec 32 := 0#32
  let v24 : BitVec 1 := Scalar.cmpi .ne v23 c0_i32_8
  v24

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2560x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S3200x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2560x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![25, 200], ![false, false]⟩

def k1_cond2 (i : grid1.Coords) : BitVec 1 :=
  let arg1 : BitVec 32 := BitVec.ofNat 32 (i 1).val
  let c199_i32 : BitVec 32 := 199#32
  let v31 : BitVec 1 := Scalar.cmpi .eq arg1 c199_i32
  let v32 : BitVec 32 := Scalar.extui v31
  let c0_i32_15 : BitVec 32 := 0#32
  let v33 : BitVec 1 := Scalar.cmpi .ne v32 c0_i32_15
  v33

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1x3200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S3200x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S3200x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

class Facts₀ : Prop where
  pads_S50000x128_S51200x128_012000_000 : S50000x128.Pads (![0, 0] : Fin 2 → Nat) ![1200, 0] ![0, 0] S51200x128
  h_S_ : 0 < S_.numel
  bitsLt_bf16_f32 : FTy.bits .bf16 < FTy.bits .f32
  shapeCasts_S600000_S600000x1 : S600000.ShapeCasts S600000x1
  pads_S600000x1_S640000x1_0400000_000 : S600000x1.Pads (![0, 0] : Fin 2 → Nat) ![40000, 0] ![0, 0] S640000x1
  shapeCasts_S600000_S1x600000 : S600000.ShapeCasts S1x600000
  pads_S1x600000_S1x640000_000_0400000 : S1x600000.Pads (![0, 0] : Fin 2 → Nat) ![0, 40000] ![0, 0] S1x640000
  pads_S600000x32_S640000x32_0400000_000 : S600000x32.Pads (![0, 0] : Fin 2 → Nat) ![40000, 0] ![0, 0] S640000x32
  inb_S2560x128_S2560x128_0_0 : ∀ a, (![0, 0] : Fin 2 → Nat) a + S2560x128.size a ≤ S2560x128.size a
  h_S2560x128 : 0 < S2560x128.numel
  shapeCasts_S2560x128_S2560x128 : S2560x128.ShapeCasts S2560x128
  iota_S2560x3200_d1_w32 : S2560x3200.Iotas .tc 32 [1]
  inb_S2560x1_S2560x1_0_0 : ∀ a, (![0, 0] : Fin 2 → Nat) a + S2560x1.size a ≤ S2560x1.size a
  h_S2560x1 : 0 < S2560x1.numel
  shapeCasts_S2560x1_S2560x1 : S2560x1.ShapeCasts S2560x1
  broadcasts_S2560x1_S2560x3200 : S2560x1.Broadcasts S2560x3200
  natLt_1_32 : 1 < 32
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  packedbf16_S2560x128_S2560x128_0_0 : (Rect.unit (s := S2560x128) ![0, 0] S2560x128.size inb_S2560x128_S2560x128_0_0).PackedRows (EltTy.packing .bf16)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x32_S2000x32_0_0 : ∀ a, (![0, 0] : Fin 2 → Nat) a + S2000x32.size a ≤ S2000x32.size a
  h_S2000x32 : 0 < S2000x32.numel
  shapeCasts_S2000x32_S2000x32 : S2000x32.ShapeCasts S2000x32
  iota_S2000x3200_d0_w32 : S2000x3200.Iotas .tc 32 [0]
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S2000x3200 : S1x3200.Broadcasts S2000x3200
  inb_S3200x32_S3200x32_0_0 : ∀ a, (![0, 0] : Fin 2 → Nat) a + S3200x32.size a ≤ S3200x32.size a
  h_S3200x32 : 0 < S3200x32.numel
  shapeCasts_S3200x32_S3200x32 : S3200x32.ShapeCasts S3200x32
  inb_S1x128_S1x128_0_0 : ∀ a, (![0, 0] : Fin 2 → Nat) a + S1x128.size a ≤ S1x128.size a
  h_S1x128 : 0 < S1x128.numel
  broadcasts_S1x128_S2000x128 : S1x128.Broadcasts S2000x128
  concatenates_S50000x128_S50000x32_S50000x160_d1 : Shape.Concatenates [S50000x128, S50000x32] S50000x160 1
  dot_S2560x3200_S3200x128_S2560x128_1_0_0_1_n_n_wf : DotDims.WF S2560x3200 S3200x128 S2560x128 [1] [0] [0] [1] [] []
  dot_S2000x3200_S3200x128_S2000x128_1_0_0_1_n_n_wf : DotDims.WF S2000x3200 S3200x128 S2000x128 [1] [0] [0] [1] [] []
  dot_S2000x3200_S3200x32_S2000x32_1_0_0_1_n_n_wf : DotDims.WF S2000x3200 S3200x32 S2000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2560x1.size a ≤ S640000x1.size a
  hwx0_0 : ∀ i : grid0.Coords, EltTy.bits .i32 = 32 ∨ (Rect.block (s := S640000x1) S2560x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S51200x128.size a
  hwx0_1 : ∀ i : grid0.Coords, EltTy.bits .bf16 = 32 ∨ (Rect.block (s := S51200x128) S3200x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2560x128.size a ≤ S640000x128.size a
  hwx0_2 : ∀ i : grid0.Coords, EltTy.bits .bf16 = 32 ∨ (Rect.block (s := S640000x128) S2560x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x3200.size a ≤ S1x640000.size a
  hwx1_0 : ∀ i : grid1.Coords, EltTy.bits .i32 = 32 ∨ (Rect.block (s := S1x640000) S1x3200.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x128.size a ≤ S640000x128.size a
  hwx1_1 : ∀ i : grid1.Coords, EltTy.bits .bf16 = 32 ∨ (Rect.block (s := S640000x128) S3200x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3200x32.size a ≤ S640000x32.size a
  hwx1_2 : ∀ i : grid1.Coords, EltTy.bits .f32 = 32 ∨ (Rect.block (s := S640000x32) S3200x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S50000x32.size a
  hwx1_5 : ∀ i : grid1.Coords, EltTy.bits .f32 = 32 ∨ (Rect.block (s := S50000x32) S2000x32.size (cc1_transform_5 i) (hinb1_5 i)).WholeWords (EltTy.packing .f32)

variable [Facts₀]

def dot_S2560x3200_S3200x128_S2560x128_1_0_0_1_n_n : DotDims S2560x3200 S3200x128 S2560x128 where
  lhsContracting := [1]
  rhsContracting := [0]
  lhsNonContracting := [0]
  rhsNonContracting := [1]
  lhsBatch := []
  rhsBatch := []
  wf := dot_S2560x3200_S3200x128_S2560x128_1_0_0_1_n_n_wf
def dot_S2000x3200_S3200x128_S2000x128_1_0_0_1_n_n : DotDims S2000x3200 S3200x128 S2000x128 where
  lhsContracting := [1]
  rhsContracting := [0]
  lhsNonContracting := [0]
  rhsNonContracting := [1]
  lhsBatch := []
  rhsBatch := []
  wf := dot_S2000x3200_S3200x128_S2000x128_1_0_0_1_n_n_wf
def dot_S2000x3200_S3200x32_S2000x32_1_0_0_1_n_n : DotDims S2000x3200 S3200x32 S2000x32 where
  lhsContracting := [1]
  rhsContracting := [0]
  lhsNonContracting := [0]
  rhsNonContracting := [1]
  lhsBatch := []
  rhsBatch := []
  wf := dot_S2000x3200_S3200x32_S2000x32_1_0_0_1_n_n_wf

abbrev win0_0 : Pipeline.Window sig grid0 :=
  Pipeline.Window.ofSpec (Memref.whole main_v3) S2560x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2560x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v5) S1x3200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S3200x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S3200x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg2) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8_0) S2000x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8_1) S2000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun i => !(k1_cond2 i == 1#1) | 5 => fun i => !(k1_cond2 i == 1#1) | ⟨_ + 6, h⟩ => absurd h (Nat.not_lt.2 (Nat.le_add_left _ _))

class Facts : Prop extends Facts₀ where

variable [Facts]
-- ==== ReferenceIdeal.lean ====
abbrev S50000x128 : Shape := ⟨2, ![50000, 128]⟩
abbrev S600000x32 : Shape := ⟨2, ![600000, 32]⟩
abbrev S1x128 : Shape := ⟨2, ![1, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000x32 : Shape := ⟨2, ![50000, 32]⟩
abbrev S50000x160 : Shape := ⟨2, ![50000, 160]⟩

abbrev nBuf : Space → Nat
  | .hbm => 25
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x32, .f32⟩
  | .hbm, ⟨2, _⟩ => ⟨S1x128, .f32⟩
  | .hbm, ⟨3, _⟩ => ⟨S600000, .i32⟩
  | .hbm, ⟨4, _⟩ => ⟨S600000, .i32⟩
  | .hbm, ⟨5, _⟩ => ⟨S_, .i32⟩
  | .hbm, ⟨6, _⟩ => ⟨S600000, .i32⟩
  | .hbm, ⟨7, _⟩ => ⟨S600000, .i1⟩
  | .hbm, ⟨8, _⟩ => ⟨S_, .i32⟩
  | .hbm, ⟨9, _⟩ => ⟨S600000, .i32⟩
  | .hbm, ⟨10, _⟩ => ⟨S600000, .i32⟩
  | .hbm, ⟨11, _⟩ => ⟨S600000, .i32⟩
  | .hbm, ⟨12, _⟩ => ⟨S600000x1, .i32⟩
  | .hbm, ⟨13, _⟩ => ⟨S600000x128, .f32⟩
  | .hbm, ⟨14, _⟩ => ⟨S600000x128, .f32⟩
  | .hbm, ⟨15, _⟩ => ⟨S600000x128, .f32⟩
  | .hbm, ⟨16, _⟩ => ⟨S_, .f32⟩
  | .hbm, ⟨17, _⟩ => ⟨S50000x128, .f32⟩
  | .hbm, ⟨18, _⟩ => ⟨S600000x1, .i32⟩
  | .hbm, ⟨19, _⟩ => ⟨S50000x128, .f32⟩
  | .hbm, ⟨20, _⟩ => ⟨S_, .f32⟩
  | .hbm, ⟨21, _⟩ => ⟨S50000x32, .f32⟩
  | .hbm, ⟨22, _⟩ => ⟨S600000x1, .i32⟩
  | .hbm, ⟨23, _⟩ => ⟨S50000x32, .f32⟩
  | .hbm, ⟨24, _⟩ => ⟨S50000x160, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S1x128_S600000x128_0_1 : S1x128.BroadcastsInDim S600000x128 (![0, 1] : Fin 2 → Fin S600000x128.rank)
  bcast_S_S50000x128 : S_.BroadcastsInDim S50000x128 (![] : Fin 0 → Fin S50000x128.rank)
  bcast_S_S50000x32 : S_.BroadcastsInDim S50000x32 (![] : Fin 0 → Fin S50000x32.rank)
  concatenates_S50000x128_S50000x32_S50000x160_d1 : Shape.Concatenates [S50000x128, S50000x32] S50000x160 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000x32_S600000x1_S600000x32_1_0_0_1_wf : ScatterDims.WF S50000x32 S600000x1 S600000x32 [1] [0] [0] 1

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000x32_S600000x1_S600000x32_1_0_0_1 : ScatterDims S50000x32 S600000x1 S600000x32 where
  updateWindowDims := [1]
  insertedWindowDims := [0]
  scatterDimsToOperandDims := [0]
  indexVectorDim := 1
  wf := scatter_S50000x32_S600000x1_S600000x32_1_0_0_1_wf

class Facts : Prop extends Facts₀ where

variable [Facts]
-- ==== Proof.KI.R0Base.lean ====
import proofs.«411513_j21534966022316_1_alg».proof.Proof.Gen.KernelIdeal.Launch
import proofs.«411513_j21534966022316_1_alg».proof.Proof.Gen.KernelIdeal.Skeleton
import proofs.«411513_j21534966022316_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

end Region

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 16 = 0 :=
  (by decide +kernel : ∀ t : Fin grid0.N, cond0_0 (grid0.coords t) ↔ t.val % 16 = 0)

abbrev cond0_1 (i : grid0.Coords) : Prop := k0_cond2 i = 1#1

theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel

theorem idleAt0_2_A : ∀ t : Fin cfg0.N, cond0_0 (grid0.coords t) → ¬cond0_1 (grid0.coords t) → cfg0.idle 2 (grid0.coords t) = true := by decide +kernel

theorem noFlush0_2_A : ∀ t : Fin cfg0.N, cond0_0 (grid0.coords t) → ¬cond0_1 (grid0.coords t) → (cfg0.win 2).flush t = false := by decide +kernel

theorem idleAt0_2_B : ∀ t : Fin cfg0.N, ¬cond0_0 (grid0.coords t) → ¬cond0_1 (grid0.coords t) → cfg0.idle 2 (grid0.coords t) = true := by decide +kernel

theorem noFlush0_2_B : ∀ t : Fin cfg0.N, ¬cond0_0 (grid0.coords t) → ¬cond0_1 (grid0.coords t) → (cfg0.win 2).flush t = false := by decide +kernel

theorem liveAt0_2_C : ∀ t : Fin cfg0.N, ¬cond0_0 (grid0.coords t) → cond0_1 (grid0.coords t) → cfg0.idle 2 (grid0.coords t) = false := by decide +kernel

abbrev VO0_2 : View sig .tc .vmem S2560x128 .bf16 := (Memref.whole cc0_stg2_0 : Memref sig .tc .vmem S2560x128 .bf16).view

abbrev ms0_0 (t : Fin cfg0.N) : Memref sig .tc .vmem S2560x1 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3200x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2560x128 .bf16 := win0_2.stage (cfg0.slots t 2)
abbrev hs0_2 (t : Fin cfg0.N) : (ms0_2 t).IsWhole := hstage0_2 ((cfg0.slots t 2).cast nbuf0_2)

abbrev scM0_0 : Memref sig .tc .vmem S2560x128 .f32 := Memref.whole cc0_scratch0

abbrev VS0_0 : View sig .tc .vmem S2560x128 .f32 := scM0_0.view

abbrev restS0 (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg0_1), ((c : Thread nD τ).loc cc1_stg0_1) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg4_0), ((c : Thread nD τ).loc cc1_stg4_0) ↦{fullShare} f)
      ∗ (∃ f : Buf (Elt F) ((c : Thread nD τ).loc cc1_stg4_1), ((c : Thread nD τ).loc cc1_stg4_1) ↦{fullShare} f)
      ∗ (∃ f : Buf (Elt F) ((c : Thread nD τ).loc cc1_stg5_0), ((c : Thread nD τ).loc cc1_stg5_0) ↦{fullShare} f)
      ∗ (∃ f : Buf (Elt F) ((c : Thread nD τ).loc cc1_stg5_1), ((c : Thread nD τ).loc cc1_stg5_1) ↦{fullShare} f)
      ∗ (∃ f : Buf (Elt F) ((c : Thread nD τ).loc cc1_scratch0), ((c : Thread nD τ).loc cc1_scratch0) ↦{fullShare} f)
      ∗ (∃ f : Buf (Elt F) ((c : Thread nD τ).loc cc1_scratch1), ((c : Thread nD τ).loc cc1_scratch1) ↦{fullShare} f))

theorem PhiA0_eq (c : Dev nD) :
    (Pipeline.ΦA spec0 c : sProp 𝕄)
      = iprop(iprop((∃ d, owns (c : Thread nD τ) scM0_0 fullShare d) ∗ restS0 (F := F) c) ∗ (∃ r, prngReg c r)) := by
  unfold Pipeline.ΦA; rw [scopedRest0_eq]; simp only [scM0_0, restS0, owns_whole]; try rfl

end Cert.KernelIdeal.Fr

end
-- ==== Proof.KI.R0RunA.lean ====
import proofs.«411513_j21534966022316_1_alg».proof.Proof.KI.R0Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S2560x1 .i32) (harg2 : arg2.IsWhole) (arg3 : Memref sig .tc .vmem S3200x128 .bf16) (harg3 : arg3.IsWhole) (arg4 : Memref sig .tc .vmem S2560x128 .bf16) (harg4 : arg4.IsWhole) (arg5 : Memref sig .tc .vmem S2560x128 .f32) (harg5 : arg5.IsWhole) (hc0 : cond0_0 i) (hc1 : ¬cond0_1 i)
    (x0 : Vec F S2560x1 .i32) (x1 : Vec F S3200x128 .bf16) :
    Σ' (L2 : List (View.Piece (Elt F) S2560x128 .bf16)), { LS0 : List (View.Piece (Elt F) S2560x128 .f32) //
      ∀ (xi2 : Vec F S2560x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.R0RunB.lean ====
import proofs.«411513_j21534966022316_1_alg».proof.Proof.KI.R0RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S2560x1 .i32) (harg2 : arg2.IsWhole) (arg3 : Memref sig .tc .vmem S3200x128 .bf16) (harg3 : arg3.IsWhole) (arg4 : Memref sig .tc .vmem S2560x128 .bf16) (harg4 : arg4.IsWhole) (arg5 : Memref sig .tc .vmem S2560x128 .f32) (harg5 : arg5.IsWhole) (hc0 : ¬cond0_0 i) (hc1 : ¬cond0_1 i)
    (x0 : Vec F S2560x1 .i32) (x1 : Vec F S3200x128 .bf16) (xs0 : Vec F S2560x128 .f32) :
    Σ' (L2 : List (View.Piece (Elt F) S2560x128 .bf16)), { LS0 : List (View.Piece (Elt F) S2560x128 .f32) //
      ∀ (xi2 : Vec F S2560x128 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨[], ?_, fun xi2 E K => ?run⟩
  case run =>
    simp only [cc0__gather_kernel_eq_skeleton]; unfold cc0__gather_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Fr

end
-- ==== Proof.KI.R0RunC.lean ====
import proofs.«411513_j21534966022316_1_alg».proof.Proof.KI.R0RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S2560x1 .i32) (harg2 : arg2.IsWhole) (arg3 : Memref sig .tc .vmem S3200x128 .bf16) (harg3 : arg3.IsWhole) (arg4 : Memref sig .tc .vmem S2560x128 .bf16) (harg4 : arg4.IsWhole) (arg5 : Memref sig .tc .vmem S2560x128 .f32) (harg5 : arg5.IsWhole) (hc0 : ¬cond0_0 i) (hc1 : cond0_1 i)
    (x0 : Vec F S2560x1 .i32) (x1 : Vec F S3200x128 .bf16) (xs0 : Vec F S2560x128 .f32) :
    Σ' (L2 : List (View.Piece (Elt F) S2560x128 .bf16)), { LS0 : List (View.Piece (Elt F) S2560x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__gather_kernel i arg2 harg2 arg3 harg3 arg4 harg4 arg5 harg5) K } := by
  refine ⟨?_, ?_, fun E K => ?run⟩
  case run =>
    simp only [cc0__gather_kernel_eq_skeleton]; unfold cc0__gather_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Fr

end
-- ==== Proof.KI.R0.lean ====
import proofs.«411513_j21534966022316_1_alg».proof.Proof.KI.R0RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid0.Coords)
  (arg2 : Memref sig .tc .vmem S2560x1 .i32) (harg2 : arg2.IsWhole)
  (arg3 : Memref sig .tc .vmem S3200x128 .bf16) (harg3 : arg3.IsWhole)
  (arg4 : Memref sig .tc .vmem S2560x128 .bf16) (harg4 : arg4.IsWhole)
  (arg5 : Memref sig .tc .vmem S2560x128 .f32) (harg5 : arg5.IsWhole)

section
variable (hc0 : cond0_0 i) (hc1 : ¬cond0_1 i)
 (x0 : Vec F S2560x1 .i32) (x1 : Vec F S3200x128 .bf16)

def out0_A_2 : Vec F S2560x128 .bf16 :=
  VO0_2.read (Elt F) (VO0_2.writes (Elt F) VO0_2.junk (kernelRun0_A c i arg2 harg2 arg3 harg3 arg4 harg4 arg5 harg5 hc0 hc1 x0 x1).1)

theorem scover0_A_0 (y : S2560x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2560x128.size (by sl_kernel_rfl) y

def sout0_A_0 : Vec F S2560x128 .f32 :=
  VS0_0.read (Elt F) (VS0_0.writes (Elt F) VS0_0.junk (kernelRun0_A c i arg2 harg2 arg3 harg3 arg4 harg4 arg5 harg5 hc0 hc1 x0 x1).2.1)

def outs0_A : Vec F S2560x128 .bf16 × Vec F S2560x128 .f32 :=
  (out0_A_2 c i arg2 harg2 arg3 harg3 arg4 harg4 arg5 harg5 hc0 hc1 x0 x1,
   sout0_A_0 c i arg2 harg2 arg3 harg3 arg4 harg4 arg5 harg5 hc0 hc1 x0 x1)

end

section
variable (hc0 : ¬cond0_0 i) (hc1 : ¬cond0_1 i)
 (x0 : Vec F S2560x1 .i32) (x1 : Vec F S3200x128 .bf16) (xs0 : Vec F S2560x128 .f32)

def out0_B_2 : Vec F S2560x128 .bf16 :=
  VO0_2.read (Elt F) (VO0_2.writes (Elt F) VO0_2.junk (kernelRun0_B c i arg2 harg2 arg3 harg3 arg4 harg4 arg5 harg5 hc0 hc1 x0 x1 xs0).1)

theorem scover0_B_0 (y : S2560x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2560x128.size (by sl_kernel_rfl) y

def sout0_B_0 : Vec F S2560x128 .f32 :=
  VS0_0.read (Elt F) (VS0_0.writes (Elt F) VS0_0.junk (kernelRun0_B c i arg2 harg2 arg3 harg3 arg4 harg4 arg5 harg5 hc0 hc1 x0 x1 xs0).2.1)

def outs0_B : Vec F S2560x128 .bf16 × Vec F S2560x128 .f32 :=
  (out0_B_2 c i arg2 harg2 arg3 harg3 arg4 harg4 arg5 harg5 hc0 hc1 x0 x1 xs0,
   sout0_B_0 c i arg2 harg2 arg3 harg3 arg4 harg4 arg5 harg5 hc0 hc1 x0 x1 xs0)

end

section
variable (hc0 : ¬cond0_0 i) (hc1 : cond0_1 i)
 (x0 : Vec F S2560x1 .i32) (x1 : Vec F S3200x128 .bf16) (xs0 : Vec F S2560x128 .f32)

theorem cover0_C_2 (y : S2560x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2560x128.size (by sl_kernel_rfl) y

def out0_C_2 : Vec F S2560x128 .bf16 :=
  VO0_2.read (Elt F) (VO0_2.writes (Elt F) VO0_2.junk (kernelRun0_C c i arg2 harg2 arg3 harg3 arg4 harg4 arg5 harg5 hc0 hc1 x0 x1 xs0).1)

theorem scover0_C_0 (y : S2560x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2560x128.size (by sl_kernel_rfl) y

def sout0_C_0 : Vec F S2560x128 .f32 :=
  VS0_0.read (Elt F) (VS0_0.writes (Elt F) VS0_0.junk (kernelRun0_C c i arg2 harg2 arg3 harg3 arg4 harg4 arg5 harg5 hc0 hc1 x0 x1 xs0).2.1)

def outs0_C : Vec F S2560x128 .bf16 × Vec F S2560x128 .f32 :=
  (out0_C_2 c i arg2 harg2 arg3 harg3 arg4 harg4 arg5 harg5 hc0 hc1 x0 x1 xs0,
   sout0_C_0 c i arg2 harg2 arg3 harg3 arg4 harg4 arg5 harg5 hc0 hc1 x0 x1 xs0)

end

end

section Region

variable (V : (c : Dev nD) → (b : Ref sig .tc) → Buf (Elt F) ((c : Thread nD τ).loc b))

/-- What the outputs and the accumulators hold after point n: a run of 16 points restarts the sums at its first point and continues from point n - 1 otherwise. -/
def outsAt0 (c : Dev nD) : (n : ℕ) → n < cfg0.N → Vec F S2560x128 .bf16 × Vec F S2560x128 .f32
  | 0, hn => outs0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩)
  | n + 1, hn =>
    if h0 : (n + 1) % 16 = 0 then
      if h1 : (n + 1) % 16 = 15 then
        False.elim (by have hN : n + 1 < 4000 := lt_of_lt_of_eq hn (show cfg0.N = 4000 from N_0); omega)
      else
        outs0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩)
    else
      if h1 : (n + 1) % 16 = 15 then
        outs0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2
      else
        outs0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2

theorem outsAt0_A (c : Dev nD) (t : Fin cfg0.N) (h0 : t.val % 16 = 0) (h1 : ¬t.val % 16 = 15) :
    outsAt0 V c t.val t.isLt = outs0_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = outs0_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = outs0_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- Between points the accumulators hold what the point before left; before the first point, anything. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ restS0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ restS0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ restS0 (F := F) c) ∗ (∃ r, prngReg c r)) := by
  cases n with
  | zero => exact absurd rfl hz
  | succ n => rfl

/-- Forgetting what the accumulators hold gives the resting invariant back. -/
theorem PhiS0_open (c : Dev nD) (n : ℕ) (h : n ≤ cfg0.N) : PhiS0 V c n h ⊢ Pipeline.ΦA spec0 c := by
  by_cases hz : n = 0
  · rw [PhiS0_zero V c n h hz]
  · rw [PhiS0_pos V c n h hz, PhiA0_eq]
    iintro ⟨⟨HS0, HR⟩, Hg⟩
    isplitl [HS0 HR]
    · isplitl [HS0]
      · iexists _; iexact HS0
      iexact HR
    iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- One point of the body, in the case its coordinates select; what each case stores covers the buffers it writes, so they end at the stored values whatever they held. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 4000 := lt_of_lt_of_eq t.isLt (show cfg0.N = 4000 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · by_cases h1 : t.val % 16 = 15
    · exfalso; omega
    ·
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold outs0_A sout0_A_0; (try dsimp only)
      rw [PhiS0_castSucc V c t]
      refine BIBase.Entails.trans (sep_mono_left (PhiS0_open V c _ _)) ?_
      rw [PhiA0_eq]
      iintro ⟨⟨⟨HS0, HR⟩, Hg⟩, Ho, ⟨%d0, H0⟩, ⟨%d1, H1⟩, ⟨%d2, H2⟩⟩
      iapply ((kernelRun0_A c (grid0.coords t) _ _ _ _ _ _ _ _ ((hcond0_0 t).mpr h0) (fun h => h1 ((hcond0_1 t).mp h)) (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _)
          iexact HR
        iexact Hg
      isplitl [Ho]; · iexact Ho
      isplitl [H0]; · iexact H0
      isplitl [H1]; · iexact H1
      iexists _; iexact H2
  · by_cases h1 : t.val % 16 = 15
    ·
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold outs0_C out0_C_2 sout0_C_0; (try dsimp only)
      have hz : t.val ≠ 0 := by omega
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _)
          iexact HR
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    ·
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold outs0_B sout0_B_0; (try dsimp only)
      have hz : t.val ≠ 0 := by omega
      rw [PhiS0_castSucc V c t, PhiS0_pos V c _ _ hz]
      iintro ⟨⟨⟨HS0, HR⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _)
          iexact HR
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

theorem hout0 (c : Dev nD) : (dat0 V c).Φ (Fin.last cfg0.N) ⊢ Pipeline.ΦA spec0 c :=
  PhiS0_open V c (Fin.last cfg0.N).val (Nat.le_of_lt_succ (Fin.last cfg0.N).isLt)

end Region

end Cert.KernelIdeal.Fr

end
-- ==== Proof.KI.R1Base.lean ====
import proofs.«411513_j21534966022316_1_alg».proof.Proof.Gen.KernelIdeal.Launch
import proofs.«411513_j21534966022316_1_alg».proof.Proof.Gen.KernelIdeal.Skeleton
import proofs.«411513_j21534966022316_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

end Region1

abbrev cond1_0 (i : grid1.Coords) : Prop := (Scalar.cmpi .ne (Scalar.extui (Scalar.cmpi .eq (BitVec.ofNat 32 (i 1).val) 0#32)) 0#32) = 1#1

theorem hcond1_0 : ∀ t : Fin cfg1.N, cond1_0 (grid1.coords t) ↔ t.val % 200 = 0 :=
  (by decide +kernel : ∀ t : Fin grid1.N, cond1_0 (grid1.coords t) ↔ t.val % 200 = 0)

abbrev cond1_1 (i : grid1.Coords) : Prop := k1_cond2 i = 1#1

theorem hcond1_1 : ∀ t : Fin cfg1.N, cond1_1 (grid1.coords t) ↔ t.val % 200 = 199 :=
  (by decide +kernel : ∀ t : Fin grid1.N, cond1_1 (grid1.coords t) ↔ t.val % 200 = 199)

theorem liveAt1_0 : ∀ t : Fin cfg1.N, cfg1.idle 0 (grid1.coords t) = false := by decide +kernel

theorem liveAt1_1 : ∀ t : Fin cfg1.N, cfg1.idle 1 (grid1.coords t) = false := by decide +kernel

theorem liveAt1_2 : ∀ t : Fin cfg1.N, cfg1.idle 2 (grid1.coords t) = false := by decide +kernel

theorem liveAt1_3 : ∀ t : Fin cfg1.N, cfg1.idle 3 (grid1.coords t) = false := by decide +kernel

theorem idleAt1_4_A : ∀ t : Fin cfg1.N, cond1_0 (grid1.coords t) → ¬cond1_1 (grid1.coords t) → cfg1.idle 4 (grid1.coords t) = true := by decide +kernel

theorem noFlush1_4_A : ∀ t : Fin cfg1.N, cond1_0 (grid1.coords t) → ¬cond1_1 (grid1.coords t) → (cfg1.win 4).flush t = false := by decide +kernel

theorem idleAt1_4_B : ∀ t : Fin cfg1.N, ¬cond1_0 (grid1.coords t) → ¬cond1_1 (grid1.coords t) → cfg1.idle 4 (grid1.coords t) = true := by decide +kernel

theorem noFlush1_4_B : ∀ t : Fin cfg1.N, ¬cond1_0 (grid1.coords t) → ¬cond1_1 (grid1.coords t) → (cfg1.win 4).flush t = false := by decide +kernel

theorem liveAt1_4_C : ∀ t : Fin cfg1.N, ¬cond1_0 (grid1.coords t) → cond1_1 (grid1.coords t) → cfg1.idle 4 (grid1.coords t) = false := by decide +kernel

theorem idleAt1_5_A : ∀ t : Fin cfg1.N, cond1_0 (grid1.coords t) → ¬cond1_1 (grid1.coords t) → cfg1.idle 5 (grid1.coords t) = true := by decide +kernel

theorem noFlush1_5_A : ∀ t : Fin cfg1.N, cond1_0 (grid1.coords t) → ¬cond1_1 (grid1.coords t) → (cfg1.win 5).flush t = false := by decide +kernel

theorem idleAt1_5_B : ∀ t : Fin cfg1.N, ¬cond1_0 (grid1.coords t) → ¬cond1_1 (grid1.coords t) → cfg1.idle 5 (grid1.coords t) = true := by decide +kernel

theorem noFlush1_5_B : ∀ t : Fin cfg1.N, ¬cond1_0 (grid1.coords t) → ¬cond1_1 (grid1.coords t) → (cfg1.win 5).flush t = false := by decide +kernel

theorem liveAt1_5_C : ∀ t : Fin cfg1.N, ¬cond1_0 (grid1.coords t) → cond1_1 (grid1.coords t) → cfg1.idle 5 (grid1.coords t) = false := by decide +kernel

abbrev VO1_4 : View sig .tc .vmem S2000x128 .f32 := (Memref.whole cc1_stg4_0 : Memref sig .tc .vmem S2000x128 .f32).view
abbrev VO1_5 : View sig .tc .vmem S2000x32 .f32 := (Memref.whole cc1_stg5_0 : Memref sig .tc .vmem S2000x32 .f32).view

abbrev ms1_0 (t : Fin cfg1.N) : Memref sig .tc .vmem S1x3200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S3200x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S3200x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S2000x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S2000x32 .f32 := win1_5.stage (cfg1.slots t 5)
abbrev hs1_5 (t : Fin cfg1.N) : (ms1_5 t).IsWhole := hstage1_5 ((cfg1.slots t 5).cast nbuf1_5)

abbrev scM1_0 : Memref sig .tc .vmem S2000x128 .f32 := Memref.whole cc1_scratch0
abbrev scM1_1 : Memref sig .tc .vmem S2000x32 .f32 := Memref.whole cc1_scratch1

abbrev VS1_0 : View sig .tc .vmem S2000x128 .f32 := scM1_0.view
abbrev VS1_1 : View sig .tc .vmem S2000x32 .f32 := scM1_1.view

theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ d, owns (c : Thread nD τ) scM1_0 fullShare d) ∗ (∃ d, owns (c : Thread nD τ) scM1_1 fullShare d)) ∗ (∃ r, prngReg c r)) := by
  unfold Pipeline.ΦA; rw [scopedRest1_eq]; simp only [scM1_0, scM1_1, owns_whole]; try rfl

end Cert.KernelIdeal.Fr

end
-- ==== Proof.KI.R1RunA.lean ====
import proofs.«411513_j21534966022316_1_alg».proof.Proof.KI.R1Base

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S3200x32 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S2000x32 .f32) (harg7 : arg7.IsWhole) (arg8 : Memref sig .tc .vmem S2000x128 .f32) (harg8 : arg8.IsWhole) (arg9 : Memref sig .tc .vmem S2000x32 .f32) (harg9 : arg9.IsWhole) (hc0 : cond1_0 i) (hc1 : ¬cond1_1 i)
    (x0 : Vec F S1x3200 .i32) (x1 : Vec F S3200x128 .bf16) (x2 : Vec F S3200x32 .f32) (x3 : Vec F S1x128 .f32) :
    Σ' (L4 : List (View.Piece (Elt F) S2000x128 .f32)) (L5 : List (View.Piece (Elt F) S2000x32 .f32)) (LS0 : List (View.Piece (Elt F) S2000x128 .f32)), { LS1 : List (View.Piece (Elt F) S2000x32 .f32) //
      ∀ (xi4 : Vec F S2000x128 .f32) (xi5 : Vec F S2000x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__scatter_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc1__scatter_kernel_eq_skeleton]; unfold cc1__scatter_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Fr

end
-- ==== Proof.KI.R1RunB.lean ====
import proofs.«411513_j21534966022316_1_alg».proof.Proof.KI.R1RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S3200x32 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S2000x32 .f32) (harg7 : arg7.IsWhole) (arg8 : Memref sig .tc .vmem S2000x128 .f32) (harg8 : arg8.IsWhole) (arg9 : Memref sig .tc .vmem S2000x32 .f32) (harg9 : arg9.IsWhole) (hc0 : ¬cond1_0 i) (hc1 : ¬cond1_1 i)
    (x0 : Vec F S1x3200 .i32) (x1 : Vec F S3200x128 .bf16) (x2 : Vec F S3200x32 .f32) (x3 : Vec F S1x128 .f32) (xs0 : Vec F S2000x128 .f32) (xs1 : Vec F S2000x32 .f32) :
    Σ' (L4 : List (View.Piece (Elt F) S2000x128 .f32)) (L5 : List (View.Piece (Elt F) S2000x32 .f32)) (LS0 : List (View.Piece (Elt F) S2000x128 .f32)), { LS1 : List (View.Piece (Elt F) S2000x32 .f32) //
      ∀ (xi4 : Vec F S2000x128 .f32) (xi5 : Vec F S2000x32 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__scatter_kernel i arg2 harg2 arg3 harg3 arg4 harg4 arg5 harg5 arg6 harg6 arg7 harg7 arg8 harg8 arg9 harg9) K } := by
  refine ⟨[], [], ?_, ?_, fun xi4 xi5 E K => ?run⟩
  case run =>
    simp only [cc1__scatter_kernel_eq_skeleton]; unfold cc1__scatter_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    iexists _; iexact HS1

end Cert.KernelIdeal.Fr

end
-- ==== Proof.KI.R1RunC.lean ====
import proofs.«411513_j21534966022316_1_alg».proof.Proof.KI.R1RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg2 : Memref sig .tc .vmem S1x3200 .i32) (harg2 : arg2.IsWhole) (arg3 : Memref sig .tc .vmem S3200x128 .bf16) (harg3 : arg3.IsWhole) (arg4 : Memref sig .tc .vmem S3200x32 .f32) (harg4 : arg4.IsWhole) (arg5 : Memref sig .tc .vmem S1x128 .f32) (harg5 : arg5.IsWhole) (arg6 : Memref sig .tc .vmem S2000x128 .f32) (harg6 : arg6.IsWhole) (arg7 : Memref sig .tc .vmem S2000x32 .f32) (harg7 : arg7.IsWhole) (arg8 : Memref sig .tc .vmem S2000x128 .f32) (harg8 : arg8.IsWhole) (arg9 : Memref sig .tc .vmem S2000x32 .f32) (harg9 : arg9.IsWhole) (hc0 : ¬cond1_0 i) (hc1 : cond1_1 i)
    (x0 : Vec F S1x3200 .i32) (x1 : Vec F S3200x128 .bf16) (x2 : Vec F S3200x32 .f32) (x3 : Vec F S1x128 .f32) (xs0 : Vec F S2000x128 .f32) (xs1 : Vec F S2000x32 .f32) :
    Σ' (L4 : List (View.Piece (Elt F) S2000x128 .f32)) (L5 : List (View.Piece (Elt F) S2000x32 .f32)) (LS0 : List (View.Piece (Elt F) S2000x128 .f32)), { LS1 : List (View.Piece (Elt F) S2000x32 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ owns (c : Thread nD τ) arg8 fullShare xs0 ∗ owns (c : Thread nD τ) arg9 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1)) -∗ K ⟨⟩))
          ⊢ wp frame (wpE (defs₀ (F := F)) Variants.none c none) E (cc1__scatter_kernel i arg2 harg2 arg3 harg3 arg4 harg4 arg5 harg5 arg6 harg6 arg7 harg7 arg8 harg8 arg9 harg9) K } := by
  refine ⟨?_, ?_, ?_, ?_, fun E K => ?run⟩
  case run =>
    simp only [cc1__scatter_kernel_eq_skeleton]; unfold cc1__scatter_kernel_skel
    simp only [k1_part1_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg8.eq_unread hfs0; obtain rfl := harg9.eq_unread hfs1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [HS0]; · iexists _; iexact HS0
    iexists _; iexact HS1

end Cert.KernelIdeal.Fr

end
-- ==== Proof.KI.R1.lean ====
import proofs.«411513_j21534966022316_1_alg».proof.Proof.KI.R1RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (c : Dev nD) (i : grid1.Coords)
  (arg2 : Memref sig .tc .vmem S1x3200 .i32) (harg2 : arg2.IsWhole)
  (arg3 : Memref sig .tc .vmem S3200x128 .bf16) (harg3 : arg3.IsWhole)
  (arg4 : Memref sig .tc .vmem S3200x32 .f32) (harg4 : arg4.IsWhole)
  (arg5 : Memref sig .tc .vmem S1x128 .f32) (harg5 : arg5.IsWhole)
  (arg6 : Memref sig .tc .vmem S2000x128 .f32) (harg6 : arg6.IsWhole)
  (arg7 : Memref sig .tc .vmem S2000x32 .f32) (harg7 : arg7.IsWhole)
  (arg8 : Memref sig .tc .vmem S2000x128 .f32) (harg8 : arg8.IsWhole)
  (arg9 : Memref sig .tc .vmem S2000x32 .f32) (harg9 : arg9.IsWhole)

section
variable (hc0 : cond1_0 i) (hc1 : ¬cond1_1 i)
 (x0 : Vec F S1x3200 .i32) (x1 : Vec F S3200x128 .bf16) (x2 : Vec F S3200x32 .f32) (x3 : Vec F S1x128 .f32)

def out1_A_4 : Vec F S2000x128 .f32 :=
  VO1_4.read (Elt F) (VO1_4.writes (Elt F) VO1_4.junk (kernelRun1_A c i arg2 harg2 arg3 harg3 arg4 harg4 arg5 harg5 arg6 harg6 arg7 harg7 arg8 harg8 arg9 harg9 hc0 hc1 x0 x1 x2 x3).1)

def out1_A_5 : Vec F S2000x32 .f32 :=
  VO1_5.read (Elt F) (VO1_5.writes (Elt F) VO1_5.junk (kernelRun1_A c i arg2 harg2 arg3 harg3 arg4 harg4 arg5 harg5 arg6 harg6 arg7 harg7 arg8 harg8 arg9 harg9 hc0 hc1 x0 x1 x2 x3).2.1)

theorem scover1_A_0 (y : S2000x128.Idx) :
    ∃ pc ∈ (kernelRun1_A c i arg2 harg2 arg3 harg3 arg4 harg4 arg5 harg5 arg6 harg6 arg7 harg7 arg8 harg8 arg9 harg9 hc0 hc1 x0 x1 x2 x3).2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.1 S2000x128.size (by sl_kernel_rfl) y

def sout1_A_0 : Vec F S2000x128 .f32 :=
  VS1_0.read (Elt F) (VS1_0.writes (Elt F) VS1_0.junk (kernelRun1_A c i arg2 harg2 arg3 harg3 arg4 harg4 arg5 harg5 arg6 harg6 arg7 harg7 arg8 harg8 arg9 harg9 hc0 hc1 x0 x1 x2 x3).2.2.1)

theorem scover1_A_1 (y : S2000x32.Idx) :
    ∃ pc ∈ (kernelRun1_A c i arg2 harg2 arg3 harg3 arg4 harg4 arg5 harg5 arg6 harg6 arg7 harg7 arg8 harg8 arg9 harg9 hc0 hc1 x0 x1 x2 x3).2.2.2.1, y ∈ pc.1.set :=
  View.cover_of_tiledL (kernelRun1_A c i arg2 harg2 arg3 harg3 arg4 harg4 arg5 harg5 arg6 harg6 arg7 harg7 arg8 harg8 arg9 harg9 hc0 hc1 x0 x1 x2 x3).2.2.2.1 S2000x32.size (by sl_kernel_rfl) y

def sout1_A_1 : Vec F S2000x32 .f32 :=
  VS1_1.read (Elt F) (VS1_1.writes (Elt F) VS1_1.junk (kernelRun1_A c i arg2 harg2 arg3 harg3 arg4 harg4 arg5 harg5 arg6 harg6 arg7 harg7 arg8 harg8 arg9 harg9 hc0 hc1 x0 x1 x2 x3).2.2.2.1)

def outs1_A : Vec F S2000x128 .f32 × Vec F S2000x32 .f32 × Vec F S2000x128 .f32 × Vec F S2000x32 .f32 :=
  (out1_A_4 c i arg2 harg2 arg3 harg3 arg4 harg4 arg5 harg5 arg6 harg6 arg7 harg7 arg8 harg8 arg9 harg9 hc0 hc1 x0 x1 x2 x3,
   out1_A_5 c i arg2 harg2 arg3 harg3 arg4 harg4 arg5 harg5 arg6 harg6 arg7 harg7 arg8 harg8 arg9 harg9 hc0 hc1 x0 x1 x2 x3,
   sout1_A_0 c i arg2 harg2 arg3 harg3 arg4 harg4 arg5 harg5 arg6 harg6 arg7 harg7 arg8 harg8 arg9 harg9 hc0 hc1 x0 x1 x2 x3,
   sout1_A_1 c i arg2 harg2 arg3 harg3 arg4 harg4 arg5 harg5 arg6 harg6 arg7 harg7 arg8 harg8 arg9 harg9 hc0 hc1 x0 x1 x2 x3)

end

section
variable (hc0 : ¬cond1_0 i) (hc1 : ¬cond1_1 i)
 (x0 : Vec F S1x3200 .i32) (x1 : Vec F S3200x128 .bf16) (x2 : Vec F S3200x32 .f32) (x3 : Vec F S1x128 .f32) (xs0 : Vec F S2000x128 .f32) (xs1 : Vec F S2000x32 .f32)

def out1_B_4 : Vec F S2000x128 .f32 :=
  VO1_4.read (Elt F) (VO1_4.writes (Elt F) VO1_4.junk (kernelRun1_B c i arg2 harg2 arg3 harg3 arg4 harg4 arg5 harg5 arg6 harg6 arg7 harg7 arg8 harg8 arg9 harg9 hc0 hc1 x0 x1 x2 x3 xs0 xs1).1)

def out1_B_5 : Vec F S2000x32 .f32 :=
  VO1_5.read (Elt F) (VO1_5.writes (Elt F) VO1_5.junk (kernelRun1_B c i arg2 harg2 arg3 harg3 arg4 harg4 arg5 harg5 arg6 harg6 arg7 harg7 arg8 harg8 arg9 harg9 hc0 hc1 x0 x1 x2 x3 xs0 xs1).2.1)

theorem scover1_B_0 (y : S2000x128.Idx) :
    ∃ pc ∈ (kernelRun1_B c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).2.2.1 S2000x128.size (by sl_kernel_rfl) y

def sout1_B_0 : Vec F S2000x128 .f32 :=
  VS1_0.read (Elt F) (VS1_0.writes (Elt F) VS1_0.junk (kernelRun1_B c i arg2 harg2 arg3 harg3 arg4 harg4 arg5 harg5 arg6 harg6 arg7 harg7 arg8 harg8 arg9 harg9 hc0 hc1 x0 x1 x2 x3 xs0 xs1).2.2.1)

theorem scover1_B_1 (y : S2000x32.Idx) :
    ∃ pc ∈ (kernelRun1_B c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_B c i arg2 harg2 arg3 harg3 arg4 harg4 arg5 harg5 arg6 harg6 arg7 harg7 arg8 harg8 arg9 harg9 hc0 hc1 x0 x1 x2 x3 xs0 xs1).2.2.2.1 S2000x32.size (by sl_kernel_rfl) y

def sout1_B_1 : Vec F S2000x32 .f32 :=
  VS1_1.read (Elt F) (VS1_1.writes (Elt F) VS1_1.junk (kernelRun1_B c i arg2 harg2 arg3 harg3 arg4 harg4 arg5 harg5 arg6 harg6 arg7 harg7 arg8 harg8 arg9 harg9 hc0 hc1 x0 x1 x2 x3 xs0 xs1).2.2.2.1)

def outs1_B : Vec F S2000x128 .f32 × Vec F S2000x32 .f32 × Vec F S2000x128 .f32 × Vec F S2000x32 .f32 :=
  (out1_B_4 c i arg2 harg2 arg3 harg3 arg4 harg4 arg5 harg5 arg6 harg6 arg7 harg7 arg8 harg8 arg9 harg9 hc0 hc1 x0 x1 x2 x3 xs0 xs1,
   out1_B_5 c i arg2 harg2 arg3 harg3 arg4 harg4 arg5 harg5 arg6 harg6 arg7 harg7 arg8 harg8 arg9 harg9 hc0 hc1 x0 x1 x2 x3 xs0 xs1,
   sout1_B_0 c i arg2 harg2 arg3 harg3 arg4 harg4 arg5 harg5 arg6 harg6 arg7 harg7 arg8 harg8 arg9 harg9 hc0 hc1 x0 x1 x2 x3 xs0 xs1,
   sout1_B_1 c i arg2 harg2 arg3 harg3 arg4 harg4 arg5 harg5 arg6 harg6 arg7 harg7 arg8 harg8 arg9 harg9 hc0 hc1 x0 x1 x2 x3 xs0 xs1)

end

section
variable (hc0 : ¬cond1_0 i) (hc1 : cond1_1 i)
 (x0 : Vec F S1x3200 .i32) (x1 : Vec F S3200x128 .bf16) (x2 : Vec F S3200x32 .f32) (x3 : Vec F S1x128 .f32) (xs0 : Vec F S2000x128 .f32) (xs1 : Vec F S2000x32 .f32)

theorem cover1_C_4 (y : S2000x128.Idx) :
    ∃ pc ∈ (kernelRun1_C c i arg2 harg2 arg3 harg3 arg4 harg4 arg5 harg5 arg6 harg6 arg7 harg7 arg8 harg8 arg9 harg9 hc0 hc1 x0 x1 x2 x3 xs0 xs1).1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).1 S2000x128.size (by sl_kernel_rfl) y

def out1_C_4 : Vec F S2000x128 .f32 :=
  VO1_4.read (Elt F) (VO1_4.writes (Elt F) VO1_4.junk (kernelRun1_C c i arg2 harg2 arg3 harg3 arg4 harg4 arg5 harg5 arg6 harg6 arg7 harg7 arg8 harg8 arg9 harg9 hc0 hc1 x0 x1 x2 x3 xs0 xs1).1)

theorem cover1_C_5 (y : S2000x32.Idx) :
    ∃ pc ∈ (kernelRun1_C c i arg2 harg2 arg3 harg3 arg4 harg4 arg5 harg5 arg6 harg6 arg7 harg7 arg8 harg8 arg9 harg9 hc0 hc1 x0 x1 x2 x3 xs0 xs1).2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.1 S2000x32.size (by sl_kernel_rfl) y

def out1_C_5 : Vec F S2000x32 .f32 :=
  VO1_5.read (Elt F) (VO1_5.writes (Elt F) VO1_5.junk (kernelRun1_C c i arg2 harg2 arg3 harg3 arg4 harg4 arg5 harg5 arg6 harg6 arg7 harg7 arg8 harg8 arg9 harg9 hc0 hc1 x0 x1 x2 x3 xs0 xs1).2.1)

theorem scover1_C_0 (y : S2000x128.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.1 S2000x128.size (by sl_kernel_rfl) y

def sout1_C_0 : Vec F S2000x128 .f32 :=
  VS1_0.read (Elt F) (VS1_0.writes (Elt F) VS1_0.junk (kernelRun1_C c i arg2 harg2 arg3 harg3 arg4 harg4 arg5 harg5 arg6 harg6 arg7 harg7 arg8 harg8 arg9 harg9 hc0 hc1 x0 x1 x2 x3 xs0 xs1).2.2.1)

theorem scover1_C_1 (y : S2000x32.Idx) :
    ∃ pc ∈ (kernelRun1_C c i arg2 harg2 arg3 harg3 arg4 harg4 arg5 harg5 arg6 harg6 arg7 harg7 arg8 harg8 arg9 harg9 hc0 hc1 x0 x1 x2 x3 xs0 xs1).2.2.2.1, y ∈ pc.1.set :=
  View.cover_of_tiledL (kernelRun1_C c i arg2 harg2 arg3 harg3 arg4 harg4 arg5 harg5 arg6 harg6 arg7 harg7 arg8 harg8 arg9 harg9 hc0 hc1 x0 x1 x2 x3 xs0 xs1).2.2.2.1 S2000x32.size (by sl_kernel_rfl) y

def sout1_C_1 : Vec F S2000x32 .f32 :=
  VS1_1.read (Elt F) (VS1_1.writes (Elt F) VS1_1.junk (kernelRun1_C c i arg2 harg2 arg3 harg3 arg4 harg4 arg5 harg5 arg6 harg6 arg7 harg7 arg8 harg8 arg9 harg9 hc0 hc1 x0 x1 x2 x3 xs0 xs1).2.2.2.1)

def outs1_C : Vec F S2000x128 .f32 × Vec F S2000x32 .f32 × Vec F S2000x128 .f32 × Vec F S2000x32 .f32 :=
  (out1_C_4 c i arg2 harg2 arg3 harg3 arg4 harg4 arg5 harg5 arg6 harg6 arg7 harg7 arg8 harg8 arg9 harg9 hc0 hc1 x0 x1 x2 x3 xs0 xs1,
   out1_C_5 c i arg2 harg2 arg3 harg3 arg4 harg4 arg5 harg5 arg6 harg6 arg7 harg7 arg8 harg8 arg9 harg9 hc0 hc1 x0 x1 x2 x3 xs0 xs1,
   sout1_C_0 c i arg2 harg2 arg3 harg3 arg4 harg4 arg5 harg5 arg6 harg6 arg7 harg7 arg8 harg8 arg9 harg9 hc0 hc1 x0 x1 x2 x3 xs0 xs1,
   sout1_C_1 c i arg2 harg2 arg3 harg3 arg4 harg4 arg5 harg5 arg6 harg6 arg7 harg7 arg8 harg8 arg9 harg9 hc0 hc1 x0 x1 x2 x3 xs0 xs1)

end

end

section Region1

variable (V : (c : Dev nD) → (b : Ref sig .tc) → Buf (Elt F) ((c : Thread nD τ).loc b))

/-- What the outputs and the accumulators hold after point n: a run of 200 points restarts the sums at its first point and continues from point n - 1 otherwise. -/
def outsAt1 (c : Dev nD) : (n : ℕ) → n < cfg1.N → Vec F S2000x128 .f32 × Vec F S2000x32 .f32 × Vec F S2000x128 .f32 × Vec F S2000x32 .f32
  | 0, hn => outs1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩) (iblk1 V c 3 ⟨0, hn⟩)
  | n + 1, hn =>
    if h0 : (n + 1) % 200 = 0 then
      if h1 : (n + 1) % 200 = 199 then
        False.elim (by omega)
      else
        outs1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩)
    else
      if h1 : (n + 1) % 200 = 199 then
        outs1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2
      else
        outs1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2

theorem outsAt1_A (c : Dev nD) (t : Fin cfg1.N) (h0 : t.val % 200 = 0) (h1 : ¬t.val % 200 = 199) :
    outsAt1 V c t.val t.isLt = outs1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (fun h => h1 ((hcond1_1 t).mp h)) (iblk1 V c 0 t) (iblk1 V c 1 t) (iblk1 V c 2 t) (iblk1 V c 3 t) := by
  obtain ⟨n, hn⟩ := t
  cases n with
  | zero => exact rfl
  | succ n => exact (dif_pos h0).trans ((dif_neg h1).trans rfl)

theorem outsAt1_B (c : Dev nD) (t : Fin cfg1.N) (h0 : ¬t.val % 200 = 0) (h1 : ¬t.val % 200 = 199) :
    outsAt1 V c t.val t.isLt = outs1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 200 = 0) (h1 : t.val % 200 = 199) :
    outsAt1 V c t.val t.isLt = outs1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) ((hcond1_1 t).mpr h1) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-- Between points the accumulators hold what the point before left; before the first point, anything. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2.1) ∗ owns (c : Thread nD τ) scM1_1 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c n hn).2.2.1) ∗ owns (c : Thread nD τ) scM1_1 fullShare ((outsAt1 V c n hn).2.2.2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ owns (c : Thread nD τ) scM1_0 fullShare ((outsAt1 V c (n - 1) (by omega)).2.2.1) ∗ owns (c : Thread nD τ) scM1_1 fullShare ((outsAt1 V c (n - 1) (by omega)).2.2.2)) ∗ (∃ r, prngReg c r)) := by
  cases n with
  | zero => exact absurd rfl hz
  | succ n => rfl

/-- Forgetting what the accumulators hold gives the resting invariant back. -/
theorem PhiS1_open (c : Dev nD) (n : ℕ) (h : n ≤ cfg1.N) : PhiS1 V c n h ⊢ Pipeline.ΦA spec1 c := by
  by_cases hz : n = 0
  · rw [PhiS1_zero V c n h hz]
  · rw [PhiS1_pos V c n h hz, PhiA1_eq]
    iintro ⟨⟨HR0, HR1, HR2, HR3, HR4, HR5, HR6, HS0, HS1⟩, Hg⟩
    isplitl [HR0 HR1 HR2 HR3 HR4 HR5 HR6 HS0 HS1]
    · isplitl [HR0]; · iexact HR0
      isplitl [HR1]; · iexact HR1
      isplitl [HR2]; · iexact HR2
      isplitl [HR3]; · iexact HR3
      isplitl [HR4]; · iexact HR4
      isplitl [HR5]; · iexact HR5
      isplitl [HR6]; · iexact HR6
      isplitl [HS0]; · iexists _; iexact HS0
      iexists _; iexact HS1
    iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 6400000 in
/-- One point of the body, in the case its coordinates select; what each case stores covers the buffers it writes, so they end at the stored values whatever they held. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ]
  have hN : t.val < 5000 := lt_of_lt_of_eq t.isLt (show cfg1.N = 5000 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 200 = 0
  · by_cases h1 : t.val % 200 = 199
    · exfalso; omega
    ·
      rw [Dat.leavesExact_idle (dat1 V c) 4 t (idleAt1_4_A t ((hcond1_0 t).mpr h0) (fun h => h1 ((hcond1_1 t).mp h))) (noFlush1_4_A t ((hcond1_0 t).mpr h0) (fun h => h1 ((hcond1_1 t).mp h)))]
      rw [Dat.leavesExact_idle (dat1 V c) 5 t (idleAt1_5_A t ((hcond1_0 t).mpr h0) (fun h => h1 ((hcond1_1 t).mp h))) (noFlush1_5_A t ((hcond1_0 t).mpr h0) (fun h => h1 ((hcond1_1 t).mp h)))]
      rw [outsAt1_A V c t h0 h1]
      unfold outs1_A sout1_A_0 sout1_A_1; (try dsimp only)
      rw [PhiS1_castSucc V c t]
      refine BIBase.Entails.trans (sep_mono_left (PhiS1_open V c _ _)) ?_
      rw [PhiA1_eq]
      iintro ⟨⟨⟨HR0, HR1, HR2, HR3, HR4, HR5, HR6, HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (fun h => h1 ((hcond1_1 t).mp h)) (iblk1 V c 0 t) (iblk1 V c 1 t) (iblk1 V c 2 t) (iblk1 V c 3 t)).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HR0 HR1 HR2 HR3 HR4 HR5 HR6 HS0 HS1 Hg]
      · isplitl [HR0 HR1 HR2 HR3 HR4 HR5 HR6 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HS0]
          · unfold owns; iexists _; isplitr
            swap; · iexact HS0
            ipureintro; exact View.read_writes_of_cover _ _ _ _ _ (scover1_A_0 c _ _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5
  · by_cases h1 : t.val % 200 = 199
    ·
      rw [show (dat1 V c).leavesExact 4 t = owns (c : Thread nD τ) (ms1_4 t) fullShare ((dat1 V c).after 4 t) from by
        unfold Dat.leavesExact; rw [liveAt1_4_C t (fun h => h0 ((hcond1_0 t).mp h)) ((hcond1_1 t).mpr h1)], after1_4]
      rw [show (dat1 V c).leavesExact 5 t = owns (c : Thread nD τ) (ms1_5 t) fullShare ((dat1 V c).after 5 t) from by
        unfold Dat.leavesExact; rw [liveAt1_5_C t (fun h => h0 ((hcond1_0 t).mp h)) ((hcond1_1 t).mpr h1)], after1_5]
      rw [outsAt1_C V c t h0 h1]
      unfold outs1_C out1_C_4 out1_C_5 sout1_C_0 sout1_C_1; (try dsimp only)
      have hz : t.val ≠ 0 := by omega
      rw [PhiS1_castSucc V c t, PhiS1_pos V c _ _ hz]
      iintro ⟨⟨⟨HR0, HR1, HR2, HR3, HR4, HR5, HR6, HS0, HS1⟩, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ (fun h => h0 ((hcond1_0 t).mp h)) ((hcond1_1 t).mpr h1) (iblk1 V c 0 t) (iblk1 V c 1 t) (iblk1 V c 2 t) (iblk1 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HR0 HR1 HR2 HR3 HR4 HR5 HR6 HS0 HS1 Hg]
      · isplitl [HR0 HR1 HR2 HR3 HR4 HR5 HR6 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HS0]
          · unfold owns; iexists _; isplitr
            swap; · iexact HS0
            ipureintro; exact View.read_writes_of_cover _ _ _ _ _ (scover1_C_0 c _ _ _ _ _ _ _ _ _ _ _ _ _ _ _ _ _ _ _ _ _ _ _ _ _)
          unfold owns; iexists _; isplitr
          swap; · iexact HS1
          ipureintro; exact View.read_writes_of_cover _ _ _ _ _ (scover1_C_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_C_4 c _ _ _ _ _ _ _ _ _ _ _ _ _ _ _ _ _ _ _ _ _ _ _ _ _)
      unfold owns; iexists _; isplitr
      swap; · iexact H5
      ipureintro; exact View.read_writes_of_cover _ _ _ _ _ (cover1_C_5 c _ _ _ _ _ _ _ _ _ _ _ _ _ _ _ _ _ _ _ _ _ _ _ _ _)
    ·
      rw [Dat.leavesExact_idle (dat1 V c) 4 t (idleAt1_4_B t (fun h => h0 ((hcond1_0 t).mp h)) (fun h => h1 ((hcond1_1 t).mp h))) (noFlush1_4_B t (fun h => h0 ((hcond1_0 t).mp h)) (fun h => h1 ((hcond1_1 t).mp h)))]
      rw [Dat.leavesExact_idle (dat1 V c) 5 t (idleAt1_5_B t (fun h => h0 ((hcond1_0 t).mp h)) (fun h => h1 ((hcond1_1 t).mp h))) (noFlush1_5_B t (fun h => h0 ((hcond1_0 t).mp h)) (fun h => h1 ((hcond1_1 t).mp h)))]
      rw [outsAt1_B V c t h0 h1]
      unfold outs1_B sout1_B_0 sout1_B_1; (try dsimp only)
      have hz : t.val ≠ 0 := by omega
      rw [PhiS1_castSucc V c t, PhiS1_pos V c _ _ hz]
      iintro ⟨⟨⟨HR0, HR1, HR2, HR3, HR4, HR5, HR6, HS0, HS1⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      iintro ⟨H0, H1, H2, H3, H4, H5, ⟨%es0, HS0⟩, ⟨%es1, HS1⟩⟩
      isplitl [HR0 HR1 HR2 HR3 HR4 HR5 HR6 HS0 HS1 Hg]
      · isplitl [HR0 HR1 HR2 HR3 HR4 HR5 HR6 HS0 HS1]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexists _; iexact H4
      iexists _; iexact H5

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

theorem Phi_out1 (c : Dev nD) (t : Fin (cfg1.N + 1)) : (dat1 V c).Φ t ⊢ Pipeline.ΦA spec1 c := by
  rw [show (dat1 V c).Φ t = PhiS1 V c t.val (Nat.le_of_lt_succ t.isLt) from rfl]
  exact PhiS1_open V c _ _

theorem hout1 (c : Dev nD) : (dat1 V c).Φ (Fin.last cfg1.N) ⊢ Pipeline.ΦA spec1 c := Phi_out1 V c _

end Region1

end Cert.KernelIdeal.Fr

end
-- ==== Proof.KI.Run.lean ====
import proofs.«411513_j21534966022316_1_alg».proof.Proof.Gen.KernelIdeal.Launch
import proofs.«411513_j21534966022316_1_alg».proof.Proof.Gen.KernelIdeal.Skeleton
import proofs.«411513_j21534966022316_1_alg».proof.Proof.Gen.KernelIdeal.Points
import proofs.«411513_j21534966022316_1_alg».proof.Proof.Gen.KernelIdeal.Regions
import proofs.«411513_j21534966022316_1_alg».proof.Proof.KI.R0
import proofs.«411513_j21534966022316_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.StableHlo.Run

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev E0 : (c : Dev nD) → (b : Ref sig .tc) → Buf (Elt F) ((c : Thread nD τ).loc b) := fun c b => V8 m c b

/-- After the gather: its arrays as the region leaves them, every other buffer as it was. -/
def W9 (c : Dev nD) : Valuation τ sig (Elt F) :=
  Pipeline.withArrays spec0 c (V8 m c) fun w => (dat0 (E0 m) c).arrAt w cfg0.N
theorem W9_arr (c : Dev nD) (w : Fin cfg0.W) :
    W9 m c (Proc.devRef .tc (Pipeline.arrRef spec0 w)) = (dat0 (E0 m) c).arrAt w cfg0.N := by
  unfold W9; exact Pipeline.withArrays_arr spec0 launch0.win.arr_inj c _ _ w
theorem W9_of_ne (c : Dev nD) (b : Ref sig .tc) (hb : ∀ w, Pipeline.arrRef spec0 w ≠ b) :
    W9 m c (Proc.devRef .tc b) = V8 m c (Proc.devRef .tc b) := by
  unfold W9; exact Pipeline.withArrays_of_ne spec0 c _ _ b hb

abbrev E1 : (c : Dev nD) → (b : Ref sig .tc) → Buf (Elt F) ((c : Thread nD τ).loc b) := fun c b => W9 m c b
theorem hF0 (c : Dev nD) (w : Fin cfg0.W) : (dat0 (E0 m) c).arrAt w cfg0.N = E1 m c (Pipeline.arrRef spec0 w) :=
  (W9_arr m c w).symm
theorem hrest0 (c : Dev nD) : ∀ b, b ∉ Finset.univ.image (Pipeline.arrRef spec0) → E1 m c b = E0 m c b :=
  fun b hb => W9_of_ne m c b fun w e => hb (Finset.mem_image.mpr ⟨w, Finset.mem_univ _, e⟩)

def W10 (c : Dev nD) : Valuation τ sig (Elt F) :=
  Pipeline.withArrays spec1 c (W9 m c) fun w => (dat1 (E1 m) c).arrAt w cfg1.N
theorem W10_arr (c : Dev nD) (w : Fin cfg1.W) :
    W10 m c (Proc.devRef .tc (Pipeline.arrRef spec1 w)) = (dat1 (E1 m) c).arrAt w cfg1.N := by
  unfold W10; exact Pipeline.withArrays_arr spec1 launch1.win.arr_inj c _ _ w
theorem W10_of_ne (c : Dev nD) (b : Ref sig .tc) (hb : ∀ w, Pipeline.arrRef spec1 w ≠ b) :
    W10 m c (Proc.devRef .tc b) = W9 m c (Proc.devRef .tc b) := by
  unfold W10; exact Pipeline.withArrays_of_ne spec1 c _ _ b hb
abbrev E2 : (c : Dev nD) → (b : Ref sig .tc) → Buf (Elt F) ((c : Thread nD τ).loc b) := fun c b => W10 m c b
theorem hF1 (c : Dev nD) (w : Fin cfg1.W) : (dat1 (E1 m) c).arrAt w cfg1.N = E2 m c (Pipeline.arrRef spec1 w) :=
  (W10_arr m c w).symm
theorem hrest1 (c : Dev nD) : ∀ b, b ∉ Finset.univ.image (Pipeline.arrRef spec1) → E2 m c b = E1 m c b :=
  fun b hb => W10_of_ne m c b fun w e => hb (Finset.mem_image.mpr ⟨w, Finset.mem_univ _, e⟩)

abbrev W11 (c : Dev nD) : Valuation τ sig (Elt F) := StableHlo.after hostOps2 (W10 m c)

def pdats : (p : Fin 2) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)
abbrev ER : Fin 3 → Dev nD → sProp 𝕄 := fun _ c => R (F := F) c

def segLast : Pipeline.HostSeg (Ix := Unit) (Name := ℕ) (U := UR sig nD τ) (Lvl := ℕ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W10 m) (R (F := F))

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V8 m c) ∗ R c)
  post c := iprop(StableHlo.held (c : Thread nD τ) (Pipeline.ucRefs τ sig) (W9 m c) ∗ R c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun w => A_eq0 (E0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (E0 m) c)
    unfold Pipeline.ΦA
    iintro ⟨Hp, -, Hr⟩
    isplitl [Hr]; · iexact Hr
    iexact Hp
  hout c := by
    rw [Pipeline.ownSems0_none]
    refine BIBase.Entails.trans (hout0 (E0 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun w => A_eq1 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (E1 m) c)
    unfold Pipeline.ΦA
    iintro ⟨Hp, -, Hr⟩
    isplitl [Hr]; · iexact Hr
    iexact Hp
  hout c := by
    rw [Pipeline.ownSems0_none]
    refine BIBase.Entails.trans (hout1 (E1 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [.host (seg0 m 𝒱₀ L lv (ER (F := F))), .host (seg1 m 𝒱₀ L lv (ER (F := F))), .host (seg2 m 𝒱₀ L lv (ER (F := F))),
   .host (seg3 m 𝒱₀ L lv (ER (F := F))), .host (seg4 m 𝒱₀ L lv (ER (F := F))), .host (seg5 m 𝒱₀ L lv (ER (F := F))),
   .host (seg6 m 𝒱₀ L lv (ER (F := F))), .host (seg7 m 𝒱₀ L lv (ER (F := F))),
   .region (reg0 m), .region (reg1 m), .host (segLast m)]

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Every weakly fair run of @main ends, nothing faulting, with each buffer at the contents after the last item. -/
theorem run_all : θ_run defs (onTc (τ := τ) (main (F := F))) ⟨m, fun _ => 0, ρ⟩ (fun r => ∀ c : Dev nD,
      ∀ b ∈ Pipeline.ucRefs τ sig, r.2.mem ((c : Thread nD τ).1, b) = W11 m c b) :=
  Pipeline.θ_run_regions_kit (pcfgs (F := F)) adm (pdats m) () cellOf_inj emb₁ defs₀ 𝒱₀ L lv m ρ main (segs m)
    (fun c Q => by
      rewrite [main_chain c, Pipeline.Seg.run_eq_chain,
        show (segs m).map Pipeline.Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (W11 m c) ∗ ∃ r, prngReg c r))
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => by
        show iprop(StableHlo.held (c : Thread nD τ) (Pipeline.ucRefs τ sig) (W11 m c) ∗ R c) ⊢ _
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)

end Cert.KernelIdeal.Fr

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Pipeline (Dat Cfg Window BodyObligation cellOf)

variable {F : FTy → Type} [FloatOps F]

variable (m : (ℓ : Loc nD τ sig) → Buf (Elt F) ℓ) (ρ : Dev nD → PrngReg)

theorem V8_keep (c : Dev nD) (r : Ref sig .tc) (h0 : r ∉ hostOps0_W) (h1 : r ∉ hostOps0_1_W) (h2 : r ∉ hostOps0_2_W)
    (h3 : r ∉ hostOps0_3_W) (h4 : r ∉ hostOps0_4_W) (h5 : r ∉ hostOps0_5_W) (h6 : r ∉ hostOps0_6_W) (h7 : r ∉ hostOps0_7_W) :
    V8 m c r = m ((c : Thread nD τ).loc r) :=
  (V8_of m c r h7).trans <| (V7_of m c r h6).trans <| (V6_of m c r h5).trans <| (V5_of m c r h4).trans <|
    (V4_of m c r h3).trans <| (V3_of m c r h2).trans <| (V2_of m c r h1).trans <| (V1_of m c r h0).trans rfl

theorem W11_of (c : Dev nD) (r : Ref sig .tc) (h : r ∉ hostOps2_W) : W11 m c r = W10 m c r :=
  StableHlo.after_of_writes_sub hostOps2 _ hostOps2_writes h

theorem W11_main_arg0 (c : Dev nD) : W11 m c main_arg0 = m ((c : Thread nD τ).loc main_arg0) :=
  (W11_of m c main_arg0 (by decide)).trans <| (W10_of_ne m c main_arg0 (by decide)).trans <| (W9_of_ne m c main_arg0 (by decide)).trans <|
    V8_keep m c main_arg0 (by decide) (by decide) (by decide) (by decide) (by decide) (by decide) (by decide) (by decide)
theorem W11_main_arg1 (c : Dev nD) : W11 m c main_arg1 = m ((c : Thread nD τ).loc main_arg1) :=
  (W11_of m c main_arg1 (by decide)).trans <| (W10_of_ne m c main_arg1 (by decide)).trans <| (W9_of_ne m c main_arg1 (by decide)).trans <|
    V8_keep m c main_arg1 (by decide) (by decide) (by decide) (by decide) (by decide) (by decide) (by decide) (by decide)
theorem W9_main_arg2 (c : Dev nD) : W9 m c main_arg2 = m ((c : Thread nD τ).loc main_arg2) :=
  (W9_of_ne m c main_arg2 (by decide)).trans <|
    V8_keep m c main_arg2 (by decide) (by decide) (by decide) (by decide) (by decide) (by decide) (by decide) (by decide)
theorem W11_main_arg2 (c : Dev nD) : W11 m c main_arg2 = m ((c : Thread nD τ).loc main_arg2) :=
  (W11_of m c main_arg2 (by decide)).trans <| (W10_arr m c 3).trans <| ((dat1 (E1 m) c).arrAt_in 3 rfl _).trans <|
    (A_eq1 (E1 m) c 3).trans <| W9_main_arg2 m c
theorem W11_main_arg3 (c : Dev nD) : W11 m c main_arg3 = m ((c : Thread nD τ).loc main_arg3) :=
  (W11_of m c main_arg3 (by decide)).trans <| (W10_of_ne m c main_arg3 (by decide)).trans <| (W9_of_ne m c main_arg3 (by decide)).trans <|
    V8_keep m c main_arg3 (by decide) (by decide) (by decide) (by decide) (by decide) (by decide) (by decide) (by decide)
theorem W11_main_arg4 (c : Dev nD) : W11 m c main_arg4 = m ((c : Thread nD τ).loc main_arg4) :=
  (W11_of m c main_arg4 (by decide)).trans <| (W10_of_ne m c main_arg4 (by decide)).trans <| (W9_of_ne m c main_arg4 (by decide)).trans <|
    V8_keep m c main_arg4 (by decide) (by decide) (by decide) (by decide) (by decide) (by decide) (by decide) (by decide)

theorem W11_main_v9 (c : Dev nD) :
    W11 m c main_v9 = concatenate S50000x160 1 [⟨S50000x128, W10 m c main_v8_0⟩, ⟨S50000x32, W10 m c main_v8_1⟩]
      Facts₀.concatenates_S50000x128_S50000x32_S50000x160_d1 := by
  show StableHlo.after hostOps2 (W10 m c) (Proc.devRef .tc main_v9) = _
  after_results <;> rfl

theorem W10_main_v8_0 (c : Dev nD) : W10 m c main_v8_0 = (dat1 (E1 m) c).arrAt 4 cfg1.N := W10_arr m c 4
theorem W10_main_v8_1 (c : Dev nD) : W10 m c main_v8_1 = (dat1 (E1 m) c).arrAt 5 cfg1.N := W10_arr m c 5

theorem W9_main_v7 (c : Dev nD) : W9 m c main_v7 = (dat0 (E0 m) c).arrAt 2 cfg0.N := W9_arr m c 2

theorem run_result : θ_run defs (onTc (τ := τ) (main (F := F))) ⟨m, fun _ => 0, ρ⟩ (fun r => ∀ c : Dev nD,
      r.2.mem ((c.tc : Thread nD τ).loc main_v9)
        = concatenate S50000x160 1 [⟨S50000x128, (dat1 (E1 m) c).arrAt 4 cfg1.N⟩, ⟨S50000x32, (dat1 (E1 m) c).arrAt 5 cfg1.N⟩]
            Facts₀.concatenates_S50000x128_S50000x32_S50000x160_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c _ (mem_uc main_v9 (by decide))).trans ((W11_main_v9 m c).trans (by rw [W10_main_v8_0, W10_main_v8_1])),
     (h c _ (mem_uc main_arg0 (by decide))).trans (W11_main_arg0 m c),
     (h c _ (mem_uc main_arg1 (by decide))).trans (W11_main_arg1 m c),
     (h c _ (mem_uc main_arg2 (by decide))).trans (W11_main_arg2 m c),
     (h c _ (mem_uc main_arg3 (by decide))).trans (W11_main_arg3 m c),
     (h c _ (mem_uc main_arg4 (by decide))).trans (W11_main_arg4 m c)⟩) (run_all m ρ)

/-- No item writes an argument. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => (h c).2) (run_result m ρ)

end Cert.KernelIdeal.Fr

end
-- ==== Proof.KI.R0Pieces.lean ====
import proofs.«411513_j21534966022316_1_alg».proof.Proof.KI.R0
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem

namespace Cert.KernelIdeal.Val0

open Cert.KernelIdeal Cert.KernelIdeal.Gen Cert.KernelIdeal.Fr

variable {F : FTy → Type} [FloatOps F]

theorem origin : (![0, 0] : Fin 2 → Nat) = fun _ => 0 := funext fun a => by fin_cases a <;> rfl

theorem acc_first (c : Dev nD) (i : grid0.Coords) (arg2 : Memref sig .tc .vmem S2560x1 .i32) (harg2 : arg2.IsWhole) (arg3 : Memref sig .tc .vmem S3200x128 .bf16) (harg3 : arg3.IsWhole) (arg4 : Memref sig .tc .vmem S2560x128 .bf16) (harg4 : arg4.IsWhole) (arg5 : Memref sig .tc .vmem S2560x128 .f32) (harg5 : arg5.IsWhole) (hc0 : cond0_0 i) (hc1 : ¬cond0_1 i)
    (x0 : Vec F S2560x1 .i32) (x1 : Vec F S3200x128 .bf16) :
    sout0_A_0 c i arg2 harg2 arg3 harg3 arg4 harg4 arg5 harg5 hc0 hc1 x0 x1 = k0_pay2 i x0 (k0_pay1 (F := F)) x1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S2560x128) origin]
  simp only [View.readAt_eq_ld, harg2.read_unread, harg3.read_unread, harg5.read_unread, View.ld_unit_zero (S := S2560x1) origin, View.ld_unit_zero (S := S3200x128) origin, View.ld_unit_zero (S := S2560x128) origin, View.readCov_unit_zero (S := S2560x128) _ origin]

theorem acc_next (c : Dev nD) (i : grid0.Coords) (arg2 : Memref sig .tc .vmem S2560x1 .i32) (harg2 : arg2.IsWhole) (arg3 : Memref sig .tc .vmem S3200x128 .bf16) (harg3 : arg3.IsWhole) (arg4 : Memref sig .tc .vmem S2560x128 .bf16) (harg4 : arg4.IsWhole) (arg5 : Memref sig .tc .vmem S2560x128 .f32) (harg5 : arg5.IsWhole) (hc0 : ¬cond0_0 i) (hc1 : ¬cond0_1 i)
    (x0 : Vec F S2560x1 .i32) (x1 : Vec F S3200x128 .bf16) (xs0 : Vec F S2560x128 .f32) :
    sout0_B_0 c i arg2 harg2 arg3 harg3 arg4 harg4 arg5 harg5 hc0 hc1 x0 x1 xs0 = k0_pay2 i x0 xs0 x1 := by
  unfold sout0_B_0
  rw [View.read_writes_eq_canon _ _ _ (scover0_B_0 c i arg2 harg2 arg3 harg3 arg4 harg4 arg5 harg5 hc0 hc1 x0 x1 xs0)]
  unfold kernelRun0_B
  dsimp only
  sl_unfold_words
  rw [View.canon_unit_zero origin]
  simp only [View.readAt_eq_ld, harg2.read_unread, harg3.read_unread, harg5.read_unread, View.ld_unit_zero (S := S2560x1) origin, View.ld_unit_zero (S := S3200x128) origin, View.ld_unit_zero (S := S2560x128) origin]

theorem acc_last (c : Dev nD) (i : grid0.Coords) (arg2 : Memref sig .tc .vmem S2560x1 .i32) (harg2 : arg2.IsWhole) (arg3 : Memref sig .tc .vmem S3200x128 .bf16) (harg3 : arg3.IsWhole) (arg4 : Memref sig .tc .vmem S2560x128 .bf16) (harg4 : arg4.IsWhole) (arg5 : Memref sig .tc .vmem S2560x128 .f32) (harg5 : arg5.IsWhole) (hc0 : ¬cond0_0 i) (hc1 : cond0_1 i)
    (x0 : Vec F S2560x1 .i32) (x1 : Vec F S3200x128 .bf16) (xs0 : Vec F S2560x128 .f32) :
    sout0_C_0 c i arg2 harg2 arg3 harg3 arg4 harg4 arg5 harg5 hc0 hc1 x0 x1 xs0 = k0_pay2 i x0 xs0 x1 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero origin]
  simp only [View.readAt_eq_ld, harg2.read_unread, harg3.read_unread, harg5.read_unread, View.ld_unit_zero (S := S2560x1) origin, View.ld_unit_zero (S := S3200x128) origin, View.ld_unit_zero (S := S2560x128) origin]

theorem out_last (c : Dev nD) (i : grid0.Coords) (arg2 : Memref sig .tc .vmem S2560x1 .i32) (harg2 : arg2.IsWhole) (arg3 : Memref sig .tc .vmem S3200x128 .bf16) (harg3 : arg3.IsWhole) (arg4 : Memref sig .tc .vmem S2560x128 .bf16) (harg4 : arg4.IsWhole) (arg5 : Memref sig .tc .vmem S2560x128 .f32) (harg5 : arg5.IsWhole) (hc0 : ¬cond0_0 i) (hc1 : cond0_1 i)
    (x0 : Vec F S2560x1 .i32) (x1 : Vec F S3200x128 .bf16) (xs0 : Vec F S2560x128 .f32) :
    out0_C_2 c i arg2 harg2 arg3 harg3 arg4 harg4 arg5 harg5 hc0 hc1 x0 x1 xs0 = k0_pay3 (k0_pay2 i x0 xs0 x1) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero origin]
  simp only [View.readAt_eq_ld, harg2.read_unread, harg3.read_unread, harg5.read_unread, View.ld_unit_zero (S := S2560x1) origin, View.ld_unit_zero (S := S3200x128) origin, View.ld_unit_zero (S := S2560x128) origin, View.readCov_unit_zero (S := S2560x128) _ origin]

end Cert.KernelIdeal.Val0

end
-- ==== Proof.Spec.lean ====
import Idealize.ShloMosaic.PureOps.Ideal
import Idealize.ShloMosaic.Lib.ValueIdx

noncomputable section

open scoped BigOperators

namespace Cert.Spec

open Idealize.ShloMosaic Idealize.ShloMosaic.ValueIdx

def oh (a b : BitVec 32) : EReal := if a = b then 1 else 0

def row16 (j : Fin 16) (k : Fin 3200) : Fin 51200 := ⟨3200 * j.val + k.val, by have := j.isLt; have := k.isLt; omega⟩

def row200 (j : Fin 200) (k : Fin 3200) : Fin 640000 := ⟨3200 * j.val + k.val, by have := j.isLt; have := k.isLt; omega⟩

def tblOf (ge : (⟨2, ![50000, 128]⟩ : Shape).Idx → EReal) : (⟨2, ![51200, 128]⟩ : Shape).Idx → EReal :=
  fun y => if h : (y 0).val < 50000 then ge (ix2 (⟨(y 0).val, h⟩ : Fin 50000) (⟨(y 1).val, (y 1).isLt⟩ : Fin 128)) else 0

def srcpOf (src : IVec ⟨1, ![600000]⟩ 32) : IVec ⟨2, ![640000, 1]⟩ 32 :=
  fun y => if h : (y 0).val < 600000 then src (ix1 (⟨(y 0).val, h⟩ : Fin 600000)) else 4294967295#32

def dstpOf (dst : IVec ⟨1, ![600000]⟩ 32) : IVec ⟨2, ![1, 640000]⟩ 32 :=
  fun y => if h : (y 1).val < 600000 then dst (ix1 (⟨(y 1).val, h⟩ : Fin 600000)) else 4294967295#32

def epOf (ef : (⟨2, ![600000, 32]⟩ : Shape).Idx → EReal) : (⟨2, ![640000, 32]⟩ : Shape).Idx → EReal :=
  fun y => if h : (y 0).val < 600000 then ef (ix2 (⟨(y 0).val, h⟩ : Fin 600000) (⟨(y 1).val, (y 1).isLt⟩ : Fin 32)) else 0

def srcft (idx : IVec ⟨2, ![640000, 1]⟩ 32) (tbl : (⟨2, ![51200, 128]⟩ : Shape).Idx → EReal) :
    (⟨2, ![640000, 128]⟩ : Shape).Idx → EReal :=
  fun y => ∑ j : Fin 16, ∑ k : Fin 3200,
    oh (idx (ix2 (⟨(y 0).val, (y 0).isLt⟩ : Fin 640000) (0 : Fin 1))) (BitVec.ofNat 32 (3200 * j.val + k.val))
      * tbl (ix2 (row16 j k) (⟨(y 1).val, (y 1).isLt⟩ : Fin 128))

def aggft (dstp : IVec ⟨2, ![1, 640000]⟩ 32) (sft : (⟨2, ![640000, 128]⟩ : Shape).Idx → EReal)
    (w : (⟨2, ![1, 128]⟩ : Shape).Idx → EReal) : (⟨2, ![50000, 128]⟩ : Shape).Idx → EReal :=
  fun y => (∑ j : Fin 200, ∑ k : Fin 3200,
      oh (BitVec.ofNat 32 (y 0).val) (dstp (ix2 (0 : Fin 1) (row200 j k)))
        * sft (ix2 (row200 j k) (⟨(y 1).val, (y 1).isLt⟩ : Fin 128)))
    * w (ix2 (0 : Fin 1) (⟨(y 1).val, (y 1).isLt⟩ : Fin 128))

def agge (dstp : IVec ⟨2, ![1, 640000]⟩ 32) (ep : (⟨2, ![640000, 32]⟩ : Shape).Idx → EReal) :
    (⟨2, ![50000, 32]⟩ : Shape).Idx → EReal :=
  fun y => ∑ j : Fin 200, ∑ k : Fin 3200,
    oh (BitVec.ofNat 32 (y 0).val) (dstp (ix2 (0 : Fin 1) (row200 j k)))
      * ep (ix2 (row200 j k) (⟨(y 1).val, (y 1).isLt⟩ : Fin 32))

def srcRow (s : BitVec 32) : Fin 50000 := if h : s.toNat < 50000 then ⟨s.toNat, h⟩ else ⟨0, by decide⟩

def refft (ge : (⟨2, ![50000, 128]⟩ : Shape).Idx → EReal) (w : (⟨2, ![1, 128]⟩ : Shape).Idx → EReal)
    (src dst : IVec ⟨1, ![600000]⟩ 32) : (⟨2, ![50000, 128]⟩ : Shape).Idx → EReal :=
  fun y => ∑ e : Fin 600000,
    if dst (ix1 e) = BitVec.ofNat 32 (y 0).val
    then ge (ix2 (srcRow (src (ix1 e))) (⟨(y 1).val, (y 1).isLt⟩ : Fin 128)) * w (ix2 (0 : Fin 1) (⟨(y 1).val, (y 1).isLt⟩ : Fin 128))
    else 0

def refe (ef : (⟨2, ![600000, 32]⟩ : Shape).Idx → EReal) (dst : IVec ⟨1, ![600000]⟩ 32) :
    (⟨2, ![50000, 32]⟩ : Shape).Idx → EReal :=
  fun y => ∑ e : Fin 600000,
    if dst (ix1 e) = BitVec.ofNat 32 (y 0).val then ef (ix2 e (⟨(y 1).val, (y 1).isLt⟩ : Fin 32)) else 0

def AllReal {s : Shape} (x : s.Idx → EReal) : Prop := ∀ i, ∃ r : ℝ, x i = (r : EReal)

def SrcOk (src : IVec ⟨1, ![600000]⟩ 32) : Prop := ∀ e : Fin 600000, (src (ix1 e)).toNat < 50000

end Cert.Spec

end
-- ==== Proof.KI.R0Pay.lean ====
import proofs.«411513_j21534966022316_1_alg».proof.Proof.Gen.KernelIdeal.Skeleton
import proofs.«411513_j21534966022316_1_alg».proof.Proof.Spec
import Idealize.ShloMosaic.Lib.ValueIdx
import Idealize.ShloMosaic.Lib.Pipeline.Value
import Idealize.ShloMosaic.PureOps.Ideal.Laws

noncomputable section

open scoped BigOperators
open Idealize.ShloMosaic Idealize.ShloMosaic.ValueIdx Idealize.SL.Sem

namespace Cert.KernelIdeal.Val0

open Cert.KernelIdeal Cert.KernelIdeal.Gen

theorem lhs_gather_0 (j : S2560x128.Idx) (k : dot_S2560x3200_S3200x128_S2560x128_1_0_0_1_n_n.contr.Idx) :
    (dot_S2560x3200_S3200x128_S2560x128_1_0_0_1_n_n.lhsIdx j k 0 : ℕ) = j 0 := by
  simp [DotDims.lhsIdx, dot_S2560x3200_S3200x128_S2560x128_1_0_0_1_n_n]; rfl

theorem lhs_gather_1 (j : S2560x128.Idx) (k : dot_S2560x3200_S3200x128_S2560x128_1_0_0_1_n_n.contr.Idx) :
    (dot_S2560x3200_S3200x128_S2560x128_1_0_0_1_n_n.lhsIdx j k 1 : ℕ) = k ⟨0, by decide⟩ := by
  simp [DotDims.lhsIdx, dot_S2560x3200_S3200x128_S2560x128_1_0_0_1_n_n]; rfl

theorem rhs_gather_0 (j : S2560x128.Idx) (k : dot_S2560x3200_S3200x128_S2560x128_1_0_0_1_n_n.contr.Idx) :
    (dot_S2560x3200_S3200x128_S2560x128_1_0_0_1_n_n.rhsIdx j k 0 : ℕ) = k ⟨0, by decide⟩ := by
  simp [DotDims.rhsIdx, dot_S2560x3200_S3200x128_S2560x128_1_0_0_1_n_n]; rfl

theorem rhs_gather_1 (j : S2560x128.Idx) (k : dot_S2560x3200_S3200x128_S2560x128_1_0_0_1_n_n.contr.Idx) :
    (dot_S2560x3200_S3200x128_S2560x128_1_0_0_1_n_n.rhsIdx j k 1 : ℕ) = j 1 := by
  simp [DotDims.rhsIdx, dot_S2560x3200_S3200x128_S2560x128_1_0_0_1_n_n]; rfl

theorem product_apply (A : FVec Ideal S2560x3200 .bf16) (B : FVec Ideal S3200x128 .bf16) (p : Fin 2560) (q : Fin 128) :
    matmul dot_S2560x3200_S3200x128_S2560x128_1_0_0_1_n_n none A B (constant S2560x128 .f32 0x00000000#32) (ix2 p q)
      = ∑ k : Fin 3200, A (ix2 p k) * B (ix2 k q) := by
  show FloatOps.matmul _ none A B (constant S2560x128 .f32 0x00000000#32) (ix2 p q) = _
  rw [Ideal.matmul_constant_zero_apply,
    ← Equiv.sum_comp (contrEquiv1 dot_S2560x3200_S3200x128_S2560x128_1_0_0_1_n_n 3200 rfl rfl).symm]
  refine Finset.sum_congr rfl fun c _ => ?_
  have hc := contrEquiv1_symm_val dot_S2560x3200_S3200x128_S2560x128_1_0_0_1_n_n 3200 rfl rfl c
  have hl : dot_S2560x3200_S3200x128_S2560x128_1_0_0_1_n_n.lhsIdx (ix2 p q)
      ((contrEquiv1 dot_S2560x3200_S3200x128_S2560x128_1_0_0_1_n_n 3200 rfl rfl).symm c) = ix2 p c := by
    funext ax; apply Fin.ext
    match ax with
    | ⟨0, _⟩ => exact lhs_gather_0 _ _
    | ⟨1, _⟩ => exact (lhs_gather_1 _ _).trans hc
  have hr : dot_S2560x3200_S3200x128_S2560x128_1_0_0_1_n_n.rhsIdx (ix2 p q)
      ((contrEquiv1 dot_S2560x3200_S3200x128_S2560x128_1_0_0_1_n_n 3200 rfl rfl).symm c) = ix2 c q := by
    funext ax; apply Fin.ext
    match ax with
    | ⟨0, _⟩ => exact (rhs_gather_0 _ _).trans hc
    | ⟨1, _⟩ => exact rhs_gather_1 _ _
  rw [hl, hr]

theorem indicator_apply (n : Nat) (x0 : IVec S2560x1 32) (p : Fin 2560) (k : Fin 3200) :
    (truncf .bf16 (sitofp .f32 (extui 32 (cmpi .eq (broadcastTo S2560x3200 x0 broadcasts_S2560x1_S2560x3200)
        (addi (iota .tc S2560x3200 32 [1] iota_S2560x3200_d1_w32)
          (broadcast S2560x3200 (Scalar.muli (BitVec.ofNat 32 n) 3200#32)))) natLt_1_32)) bitsLt_bf16_f32
        : FVec Ideal S2560x3200 .bf16) (ix2 p k)
      = Cert.Spec.oh (x0 (ix2 p 0)) (BitVec.ofNat 32 (3200 * n + k.val)) := by
  have hb : broadcastTo S2560x3200 x0 broadcasts_S2560x1_S2560x3200 (ix2 p k) = x0 (ix2 p 0) :=
    broadcastTo_apply x0 _ (ix2 p k) (ix2 p 0) (fun a => by
      match a with
      | ⟨0, _⟩ => rfl
      | ⟨1, _⟩ => rfl)
  have hn : IntOp.addi (BitVec.ofNat 32 (0 * 3200 + k.val)) (Scalar.muli (BitVec.ofNat 32 n) 3200#32)
      = BitVec.ofNat 32 (3200 * n + k.val) := by
    show BitVec.ofNat 32 (0 * 3200 + k.val) + BitVec.ofNat 32 n * 3200#32 = _
    apply BitVec.eq_of_toNat_eq
    simp only [BitVec.toNat_add, BitVec.toNat_mul, BitVec.toNat_ofNat]
    omega
  show ((((IntOp.cmpi .eq (broadcastTo S2560x3200 x0 broadcasts_S2560x1_S2560x3200 (ix2 p k))
    (IntOp.addi (BitVec.ofNat 32 (0 * 3200 + k.val)) (Scalar.muli (BitVec.ofNat 32 n) 3200#32))).setWidth 32).toInt : ℝ) : EReal) = _
  rw [hb, hn]
  unfold Cert.Spec.oh IntOp.cmpi
  by_cases h : x0 (ix2 p 0) = BitVec.ofNat 32 (3200 * n + k.val)
  · simp [h]
  · have e : (x0 (ix2 p 0) == BitVec.ofNat 32 (3200 * n + k.val)) = false := by simp [h]
    simp [h, e]

theorem pay1_apply (y : S2560x128.Idx) : k0_pay1 (F := Ideal) y = 0 := by
  unfold k0_pay1
  simp only [shapeCast_self]
  exact Ideal.ofBits_zero_f32

theorem pay2_apply (i : grid0.Coords) (x0 : Vec Ideal S2560x1 .i32) (acc : Vec Ideal S2560x128 .f32)
    (x1 : Vec Ideal S3200x128 .bf16) (p : Fin 2560) (q : Fin 128) :
    k0_pay2 (F := Ideal) i x0 acc x1 (ix2 p q)
      = acc (ix2 p q) + ∑ k : Fin 3200,
          Cert.Spec.oh (x0 (ix2 p 0)) (BitVec.ofNat 32 (3200 * (i 1).val + k.val)) * x1 (ix2 k q) := by
  unfold k0_pay2
  simp only [shapeCast_self]
  refine (congrArg (acc (ix2 p q) + ·) (product_apply _ _ p q)).trans ?_
  refine congrArg (acc (ix2 p q) + ·) (Finset.sum_congr rfl fun k _ => ?_)
  exact congrArg (· * x1 (ix2 k q)) (indicator_apply (i 1).val x0 p k)

theorem pay3_eq (v : Vec Ideal S2560x128 .f32) : k0_pay3 (F := Ideal) v = v := rfl

end Cert.KernelIdeal.Val0

end
-- ==== Proof.KI.R0Acc.lean ====
import proofs.«411513_j21534966022316_1_alg».proof.Proof.Spec
import Mathlib.Algebra.BigOperators.Group.Finset.Basic
import Mathlib.Data.Fintype.Basic

noncomputable section

open scoped BigOperators
open Idealize.ShloMosaic Idealize.ShloMosaic.ValueIdx

namespace Cert.KernelIdeal.Val0

def firstBlocks (m : ℕ) : Finset (Fin 16) := Finset.univ.filter fun j => j.val ≤ m

theorem firstBlocks_zero : firstBlocks 0 = {0} := by
  ext j
  simp only [firstBlocks, Finset.mem_filter, Finset.mem_univ, true_and, Finset.mem_singleton, Fin.ext_iff]
  show j.val ≤ 0 ↔ j.val = 0
  omega

theorem firstBlocks_succ (m : ℕ) (h : m + 1 < 16) : firstBlocks (m + 1) = insert (⟨m + 1, h⟩ : Fin 16) (firstBlocks m) := by
  ext j
  simp only [firstBlocks, Finset.mem_filter, Finset.mem_univ, true_and, Finset.mem_insert, Fin.ext_iff]
  omega

theorem not_mem_firstBlocks (m : ℕ) (h : m + 1 < 16) : (⟨m + 1, h⟩ : Fin 16) ∉ firstBlocks m := by
  simp only [firstBlocks, Finset.mem_filter, Finset.mem_univ, true_and]
  omega

theorem firstBlocks_last : firstBlocks 15 = Finset.univ := by
  ext j
  simp only [firstBlocks, Finset.mem_filter, Finset.mem_univ, true_and, iff_true]
  have := j.isLt
  omega

def share (idx : IVec ⟨2, ![640000, 1]⟩ 32) (tbl : (⟨2, ![51200, 128]⟩ : Shape).Idx → EReal)
    (e : Fin 640000) (q : Fin 128) (j : Fin 16) : EReal :=
  ∑ k : Fin 3200, Cert.Spec.oh (idx (ix2 e (0 : Fin 1))) (BitVec.ofNat 32 (3200 * j.val + k.val))
    * tbl (ix2 (Cert.Spec.row16 j k) q)

def sumTo (idx : IVec ⟨2, ![640000, 1]⟩ 32) (tbl : (⟨2, ![51200, 128]⟩ : Shape).Idx → EReal)
    (m : ℕ) (e : Fin 640000) (q : Fin 128) : EReal :=
  ∑ j ∈ firstBlocks m, share idx tbl e q j

theorem sumTo_zero (idx : IVec ⟨2, ![640000, 1]⟩ 32) (tbl : (⟨2, ![51200, 128]⟩ : Shape).Idx → EReal)
    (e : Fin 640000) (q : Fin 128) : sumTo idx tbl 0 e q = share idx tbl e q 0 := by
  unfold sumTo
  rw [firstBlocks_zero, Finset.sum_singleton]

theorem sumTo_succ (idx : IVec ⟨2, ![640000, 1]⟩ 32) (tbl : (⟨2, ![51200, 128]⟩ : Shape).Idx → EReal)
    (m : ℕ) (h : m + 1 < 16) (e : Fin 640000) (q : Fin 128) :
    sumTo idx tbl (m + 1) e q = sumTo idx tbl m e q + share idx tbl e q ⟨m + 1, h⟩ := by
  unfold sumTo
  rw [firstBlocks_succ m h, Finset.sum_insert (not_mem_firstBlocks m h), add_comm]

theorem sumTo_last (idx : IVec ⟨2, ![640000, 1]⟩ 32) (tbl : (⟨2, ![51200, 128]⟩ : Shape).Idx → EReal)
    (e : Fin 640000) (q : Fin 128) : sumTo idx tbl 15 e q = Cert.Spec.srcft idx tbl (ix2 e q) := by
  unfold sumTo
  rw [firstBlocks_last]
  rfl

end Cert.KernelIdeal.Val0

end
-- ==== Proof.KI.R0Blk.lean ====
import proofs.«411513_j21534966022316_1_alg».proof.Proof.KI.R0Base
import Idealize.ShloMosaic.Lib.ValueIdx
import Idealize.ShloMosaic.Lib.Pipeline.Value

noncomputable section

open Idealize.ShloMosaic Idealize.ShloMosaic.ValueIdx Idealize.ShloMosaic.TcCoe Idealize.SL.Sem

namespace Cert.KernelIdeal.Val0

open Cert.KernelIdeal Cert.KernelIdeal.Gen Cert.KernelIdeal.Fr

variable {F : FTy → Type} [FloatOps F]
variable (V : (c : Dev nD) → (b : Ref sig .tc) → Buf (Elt F) ((c : Thread nD τ).loc b))

theorem in_block_index : ∀ t : Fin cfg0.N, win0_0.index t (0 : Fin 2) = t.val / 16 ∧ win0_0.index t (1 : Fin 2) = 0
    ∧ win0_1.index t (0 : Fin 2) = t.val % 16 ∧ win0_1.index t (1 : Fin 2) = 0 :=
  (by decide +kernel : ∀ t : Fin grid0.N, win0_0.index t (0 : Fin 2) = t.val / 16 ∧ win0_0.index t (1 : Fin 2) = 0
    ∧ win0_1.index t (0 : Fin 2) = t.val % 16 ∧ win0_1.index t (1 : Fin 2) = 0)

theorem coord1 : ∀ t : Fin cfg0.N, (grid0.coords t 1).val = t.val % 16 :=
  (by decide +kernel : ∀ t : Fin grid0.N, (grid0.coords t 1).val = t.val % 16)

abbrev idxBlk (c : Dev nD) (t : Fin cfg0.N) : Vec F S2560x1 .i32 := iblk0 V c 0 t
abbrev tblBlk (c : Dev nD) (t : Fin cfg0.N) : Vec F S3200x128 .bf16 := iblk0 V c 1 t
abbrev idxArr (c : Dev nD) : Vec F S640000x1 .i32 := V c main_v3
abbrev tblArr (c : Dev nD) : Vec F S51200x128 .bf16 := V c main_v1

theorem idxBlk_apply (c : Dev nD) (t : Fin cfg0.N) (p : Fin 2560) (e : Fin 640000)
    (he : e.val = 2560 * (t.val / 16) + p.val) :
    idxBlk V c t (ix2 p (0 : Fin 1)) = idxArr V c (ix2 e (0 : Fin 1)) := by
  obtain ⟨e0, e1, -, -⟩ := in_block_index t
  unfold idxBlk idxArr iblk0
  rw [View.read_apply]
  show V c main_v3 _ = V c main_v3 _
  congr 1
  funext a
  apply Fin.ext
  match a with
  | ⟨0, _⟩ => show win0_0.index t (0 : Fin 2) * 2560 + 1 * p.val = e.val; rw [e0, he]; omega
  | ⟨1, _⟩ => show win0_0.index t (1 : Fin 2) * 1 + 1 * 0 = 0; rw [e1]

theorem tblBlk_apply (c : Dev nD) (t : Fin cfg0.N) (k : Fin 3200) (q : Fin 128) (r : Fin 51200)
    (hr : r.val = 3200 * (t.val % 16) + k.val) :
    tblBlk V c t (ix2 k q) = tblArr V c (ix2 r q) := by
  obtain ⟨-, -, e2, e3⟩ := in_block_index t
  unfold tblBlk tblArr iblk0
  rw [View.read_apply]
  show V c main_v1 _ = V c main_v1 _
  congr 1
  funext a
  apply Fin.ext
  match a with
  | ⟨0, _⟩ => show win0_1.index t (0 : Fin 2) * 3200 + 1 * k.val = r.val; rw [e2, hr]; omega
  | ⟨1, _⟩ => show win0_1.index t (1 : Fin 2) * 128 + 1 * q.val = q.val; rw [e3]; omega

end Cert.KernelIdeal.Val0

end
-- ==== Proof.KI.R0Step.lean ====
import proofs.«411513_j21534966022316_1_alg».proof.Proof.KI.R0Pay
import proofs.«411513_j21534966022316_1_alg».proof.Proof.KI.R0Acc
import proofs.«411513_j21534966022316_1_alg».proof.Proof.KI.R0Blk

noncomputable section

open scoped BigOperators
open Idealize.ShloMosaic Idealize.ShloMosaic.ValueIdx Idealize.ShloMosaic.TcCoe Idealize.SL.Sem

namespace Cert.KernelIdeal.Val0

open Cert.KernelIdeal Cert.KernelIdeal.Gen Cert.KernelIdeal.Fr

variable (V : (c : Dev nD) → (b : Ref sig .tc) → Buf (Elt Ideal) ((c : Thread nD τ).loc b))

def rowOf (n : ℕ) (p : Fin 2560) : Fin 640000 :=
  ⟨2560 * (n / 16 % 250) + p.val, by have := p.isLt; have := Nat.mod_lt (n / 16) (show 0 < 250 by decide); omega⟩

theorem rowOf_val (t : Fin cfg0.N) (p : Fin 2560) : (rowOf t.val p).val = 2560 * (t.val / 16) + p.val := by
  have hN : t.val < 4000 := lt_of_lt_of_eq t.isLt (show cfg0.N = 4000 from N_0)
  show 2560 * (t.val / 16 % 250) + p.val = _
  rw [Nat.mod_eq_of_lt (by omega)]

theorem product_share (c : Dev nD) (t : Fin cfg0.N) (p : Fin 2560) (q : Fin 128) (j : Fin 16) (hj : j.val = t.val % 16) :
    (∑ k : Fin 3200, Cert.Spec.oh (idxBlk V c t (ix2 p (0 : Fin 1))) (BitVec.ofNat 32 (3200 * (grid0.coords t 1).val + k.val))
        * tblBlk V c t (ix2 k q))
      = share (idxArr V c) (tblArr V c) (rowOf t.val p) q j := by
  unfold share
  refine Finset.sum_congr rfl fun k _ => ?_
  rw [idxBlk_apply V c t p (rowOf t.val p) (rowOf_val t p),
    tblBlk_apply V c t k q (Cert.Spec.row16 j k) (by show 3200 * j.val + k.val = _; rw [hj]), coord1 t, ← hj]

def accAt (c : Dev nD) (n : ℕ) : Vec Ideal S2560x128 .f32 := fun y =>
  sumTo (idxArr V c) (tblArr V c) (n % 16) (rowOf n ⟨(y 0).val, (y 0).isLt⟩) ⟨(y 1).val, (y 1).isLt⟩

theorem accAt_apply (c : Dev nD) (n : ℕ) (p : Fin 2560) (q : Fin 128) :
    accAt V c n (ix2 p q) = sumTo (idxArr V c) (tblArr V c) (n % 16) (rowOf n p) q := rfl

theorem step_first (c : Dev nD) (t : Fin cfg0.N) (h0 : t.val % 16 = 0) :
    k0_pay2 (F := Ideal) (grid0.coords t) (idxBlk V c t) (k0_pay1 (F := Ideal)) (tblBlk V c t) = accAt V c t.val := by
  funext y
  obtain ⟨p, q, rfl⟩ : ∃ (p : Fin 2560) (q : Fin 128), y = ix2 p q := ⟨y 0, y 1, eq_ix2 y⟩
  refine (pay2_apply (grid0.coords t) (idxBlk V c t) (k0_pay1 (F := Ideal)) (tblBlk V c t) p q).trans ?_
  rw [pay1_apply, zero_add, product_share V c t p q 0 (by rw [h0]; rfl), accAt_apply, h0, sumTo_zero]

theorem step_next (c : Dev nD) (t : Fin cfg0.N) (h0 : ¬t.val % 16 = 0) :
    k0_pay2 (F := Ideal) (grid0.coords t) (idxBlk V c t) (accAt V c (t.val - 1)) (tblBlk V c t) = accAt V c t.val := by
  funext y
  obtain ⟨p, q, rfl⟩ : ∃ (p : Fin 2560) (q : Fin 128), y = ix2 p q := ⟨y 0, y 1, eq_ix2 y⟩
  refine (pay2_apply (grid0.coords t) (idxBlk V c t) (accAt V c (t.val - 1)) (tblBlk V c t) p q).trans ?_
  obtain ⟨m, hm⟩ : ∃ m, t.val % 16 = m + 1 := ⟨t.val % 16 - 1, by omega⟩
  have hm16 : m + 1 < 16 := by have := Nat.mod_lt t.val (show 0 < 16 by decide); omega
  have hprev : (t.val - 1) % 16 = m := by omega
  have hrow : rowOf (t.val - 1) p = rowOf t.val p := by
    apply Fin.ext
    show 2560 * ((t.val - 1) / 16 % 250) + p.val = 2560 * (t.val / 16 % 250) + p.val
    have : (t.val - 1) / 16 = t.val / 16 := by omega
    rw [this]
  rw [product_share V c t p q ⟨m + 1, hm16⟩ hm.symm, accAt_apply, accAt_apply, hprev, hrow, hm, sumTo_succ _ _ m hm16]

theorem accAt_last (c : Dev nD) (t : Fin cfg0.N) (h15 : t.val % 16 = 15) (p : Fin 2560) (q : Fin 128) (e : Fin 640000)
    (he : e.val = 2560 * (t.val / 16) + p.val) :
    accAt V c t.val (ix2 p q) = Cert.Spec.srcft (idxArr V c) (tblArr V c) (ix2 e q) := by
  have hrow : rowOf t.val p = e := Fin.ext ((rowOf_val t p).trans he.symm)
  rw [accAt_apply, h15, hrow, sumTo_last]

end Cert.KernelIdeal.Val0

end
-- ==== Proof.KI.R0Cover.lean ====
import proofs.«411513_j21534966022316_1_alg».proof.Proof.Gen.KernelIdeal.Points
import proofs.«411513_j21534966022316_1_alg».proof.Proof.Spec
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.Fr

open Cert.KernelIdeal Cert.KernelIdeal.Gen

theorem blkIdx0_2 : ∀ t : Fin cfg0.N, win0_2.index t (0 : Fin 2) = t.val / 16 ∧ win0_2.index t (1 : Fin 2) = 0 :=
  (by decide +kernel : ∀ t : Fin grid0.N, _)

theorem N0_eq : cfg0.N = 4000 := (by decide : grid0.N = 4000)

theorem mem_blk0_2 (t : Fin cfg0.N) (i : S640000x128.Idx) :
    i ∈ ((cfg0.win 2).blk t).view.set ↔ ∀ a : Fin 2, win0_2.index t a * S2560x128.size a ≤ (i a).val
      ∧ (i a).val < win0_2.index t a * S2560x128.size a + S2560x128.size a := by
  show i ∈ ((View.whole main_v7).slice (win0_2.rect t)).set ↔ _
  rw [View.set_slice_whole, Rect.mem_set_unit]
  exact Iff.rfl

theorem cover0_2 (i : S640000x128.Idx) :
    ∃ t : Fin cfg0.N, (cfg0.win 2).flush t = true ∧ i ∈ ((cfg0.win 2).blk t).view.set := by
  have h0 : (i 0).val < 640000 := (i 0).isLt
  have h1 : (i 1).val < 128 := (i 1).isLt
  have hN : cfg0.N = 4000 := N0_eq
  have hlt : 16 * ((i 0).val / 2560) + 15 < cfg0.N := by rw [hN]; omega
  obtain ⟨e0, e1⟩ := blkIdx0_2 ⟨16 * ((i 0).val / 2560) + 15, hlt⟩
  have e0' : win0_2.index ⟨16 * ((i 0).val / 2560) + 15, hlt⟩ (0 : Fin 2) = (16 * ((i 0).val / 2560) + 15) / 16 := e0
  refine ⟨⟨16 * ((i 0).val / 2560) + 15, hlt⟩, (flush0_2 _).mpr ?_, ?_⟩
  · show (16 * ((i 0).val / 2560) + 15) % 16 = 15
    omega
  · rw [mem_blk0_2]
    intro a
    match a with
    | ⟨0, _⟩ =>
      show win0_2.index ⟨16 * ((i 0).val / 2560) + 15, hlt⟩ (0 : Fin 2) * 2560 ≤ (i 0).val
        ∧ (i 0).val < win0_2.index ⟨16 * ((i 0).val / 2560) + 15, hlt⟩ (0 : Fin 2) * 2560 + 2560
      omega
    | ⟨1, _⟩ =>
      show win0_2.index ⟨16 * ((i 0).val / 2560) + 15, hlt⟩ (1 : Fin 2) * 128 ≤ (i 1).val
        ∧ (i 1).val < win0_2.index ⟨16 * ((i 0).val / 2560) + 15, hlt⟩ (1 : Fin 2) * 128 + 128
      omega

section
variable (c : Dev nD) (dat : Dat τ (Elt Ideal) Unit ℕ (UR sig nD τ) ℕ cfg0 c)

theorem arrAt2_eq_of_flushed (G : S640000x128.Idx → EReal)
    (hfl : ∀ t : Fin cfg0.N, t.val % 16 = 15 →
      dat.flushed 2 t = ((cfg0.win 2).blk t).view.read (Elt Ideal) G) :
    dat.arrAt 2 cfg0.N = G :=
  dat.arrAt_eq_of_cover 2 G (fun t hf => hfl t ((flush0_2 t).mp hf)) cover0_2

theorem flushed0_2_eq (G : S640000x128.Idx → EReal)
    (hpt : ∀ t : Fin cfg0.N, t.val % 16 = 15 → ∀ (p : Fin 2560) (q : Fin 128) (e : Fin 640000),
      e.val = 2560 * (t.val / 16) + p.val →
      (dat.after 2 t : Vec Ideal S2560x128 .bf16) (ix2 p q) = G (ix2 e q))
    (t : Fin cfg0.N) (ht : t.val % 16 = 15) :
    dat.flushed 2 t = ((cfg0.win 2).blk t).view.read (Elt Ideal) G := by
  obtain ⟨e0, e1⟩ := blkIdx0_2 t
  have hN : cfg0.N = 4000 := N0_eq
  have htl : t.val < 4000 := hN ▸ t.isLt
  funext y
  have hy0 : (y 0).val < 2560 := (y 0).isLt
  have hy1 : (y 1).val < 128 := (y 1).isLt
  have hlt : 2560 * (t.val / 16) + (y 0).val < 640000 := by omega
  have key := hpt t ht ⟨(y 0).val, hy0⟩ ⟨(y 1).val, hy1⟩ ⟨2560 * (t.val / 16) + (y 0).val, hlt⟩ rfl
  have hL : (cfg0.win 2).xinj (grid0.coords t) y = ix2 (⟨(y 0).val, hy0⟩ : Fin 2560) (⟨(y 1).val, hy1⟩ : Fin 128) := by
    funext a
    match a with
    | ⟨0, _⟩ => rfl
    | ⟨1, _⟩ => rfl
  have hR : ((cfg0.win 2).blk t).view.emb y
      = ix2 (⟨2560 * (t.val / 16) + (y 0).val, hlt⟩ : Fin 640000) (⟨(y 1).val, hy1⟩ : Fin 128) := by
    funext a
    apply Fin.ext
    match a with
    | ⟨0, _⟩ =>
      show win0_2.index t (0 : Fin 2) * 2560 + 1 * (y 0).val = 2560 * (t.val / 16) + (y 0).val
      omega
    | ⟨1, _⟩ =>
      show win0_2.index t (1 : Fin 2) * 128 + 1 * (y 1).val = (y 1).val
      omega
  show (dat.after 2 t : Vec Ideal S2560x128 .bf16) ((cfg0.win 2).xinj (grid0.coords t) y)
    = G (((cfg0.win 2).blk t).view.emb y)
  rw [hL, hR]
  exact key

theorem arrAt2_eq_of_entries (G : S640000x128.Idx → EReal)
    (hpt : ∀ t : Fin cfg0.N, t.val % 16 = 15 → ∀ (p : Fin 2560) (q : Fin 128) (e : Fin 640000),
      e.val = 2560 * (t.val / 16) + p.val →
      (dat.after 2 t : Vec Ideal S2560x128 .bf16) (ix2 p q) = G (ix2 e q)) :
    dat.arrAt 2 cfg0.N = G :=
  arrAt2_eq_of_flushed c dat G (flushed0_2_eq c dat G hpt)

theorem arrAt2_eq_srcft (idx : IVec ⟨2, ![640000, 1]⟩ 32) (tbl : (⟨2, ![51200, 128]⟩ : Shape).Idx → EReal)
    (hpt : ∀ t : Fin cfg0.N, t.val % 16 = 15 → ∀ (p : Fin 2560) (q : Fin 128) (e : Fin 640000),
      e.val = 2560 * (t.val / 16) + p.val →
      (dat.after 2 t : Vec Ideal S2560x128 .bf16) (ix2 p q) = Cert.Spec.srcft idx tbl (ix2 e q)) :
    dat.arrAt 2 cfg0.N = Cert.Spec.srcft idx tbl :=
  arrAt2_eq_of_entries c dat (Cert.Spec.srcft idx tbl) hpt

end

end Cert.KernelIdeal.Fr

end
-- ==== Proof.KI.R0Value.lean ====
import proofs.«411513_j21534966022316_1_alg».proof.Proof.KI.R0Pieces
import proofs.«411513_j21534966022316_1_alg».proof.Proof.KI.R0Step
import proofs.«411513_j21534966022316_1_alg».proof.Proof.KI.R0Cover

noncomputable section

open scoped BigOperators
open Idealize.ShloMosaic Idealize.ShloMosaic.ValueIdx Idealize.ShloMosaic.TcCoe Idealize.SL.Sem
open Idealize.ShloMosaic.Pipeline (Dat)

namespace Cert.KernelIdeal.Val0

open Cert.KernelIdeal Cert.KernelIdeal.Gen Cert.KernelIdeal.Fr

variable (V : (c : Dev nD) → (b : Ref sig .tc) → Buf (Elt Ideal) ((c : Thread nD τ).loc b))

/-- After point n the accumulator holds the indicator sums over the table blocks of the current run up to n. -/
theorem acc_eq (c : Dev nD) : ∀ (n : ℕ) (hn : n < cfg0.N), (outsAt0 V c n hn).2 = accAt V c n
  | 0, hn => by
    rw [outsAt0_A V c (⟨0, hn⟩ : Fin cfg0.N) (Nat.zero_mod 16) (show ¬(0 : ℕ) % 16 = 15 by decide)]
    dsimp only [outs0_A]
    exact (acc_first (F := Ideal) c (grid0.coords (⟨0, hn⟩ : Fin cfg0.N)) (ms0_0 (⟨0, hn⟩ : Fin cfg0.N)) (hs0_0 (⟨0, hn⟩ : Fin cfg0.N)) (ms0_1 (⟨0, hn⟩ : Fin cfg0.N)) (hs0_1 (⟨0, hn⟩ : Fin cfg0.N)) (ms0_2 (⟨0, hn⟩ : Fin cfg0.N)) (hs0_2 (⟨0, hn⟩ : Fin cfg0.N)) scM0_0 (Memref.isWhole_whole _)
      ((hcond0_0 (⟨0, hn⟩ : Fin cfg0.N)).mpr (Nat.zero_mod 16)) (fun h => (by decide : ¬(0 : ℕ) % 16 = 15) ((hcond0_1 (⟨0, hn⟩ : Fin cfg0.N)).mp h))
      (iblk0 V c 0 (⟨0, hn⟩ : Fin cfg0.N)) (iblk0 V c 1 (⟨0, hn⟩ : Fin cfg0.N))).trans (step_first V c (⟨0, hn⟩ : Fin cfg0.N) (Nat.zero_mod 16))
  | n + 1, hn => by
    have ih := acc_eq c n (Nat.lt_of_succ_lt hn)
    by_cases h0 : (n + 1) % 16 = 0
    · have h1 : ¬(n + 1) % 16 = 15 := by omega
      rw [outsAt0_A V c (⟨n + 1, hn⟩ : Fin cfg0.N) h0 h1]
      dsimp only [outs0_A]
      exact (acc_first (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _)
        ((hcond0_0 (⟨n + 1, hn⟩ : Fin cfg0.N)).mpr h0) (fun h => h1 ((hcond0_1 (⟨n + 1, hn⟩ : Fin cfg0.N)).mp h))
        (iblk0 V c 0 (⟨n + 1, hn⟩ : Fin cfg0.N)) (iblk0 V c 1 (⟨n + 1, hn⟩ : Fin cfg0.N))).trans (step_first V c (⟨n + 1, hn⟩ : Fin cfg0.N) h0)
    · by_cases h1 : (n + 1) % 16 = 15
      · rw [outsAt0_C V c (⟨n + 1, hn⟩ : Fin cfg0.N) h0 h1]
        dsimp only [outs0_C]
        refine (acc_last (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _)
          (fun h => h0 ((hcond0_0 (⟨n + 1, hn⟩ : Fin cfg0.N)).mp h)) ((hcond0_1 (⟨n + 1, hn⟩ : Fin cfg0.N)).mpr h1)
          (iblk0 V c 0 (⟨n + 1, hn⟩ : Fin cfg0.N)) (iblk0 V c 1 (⟨n + 1, hn⟩ : Fin cfg0.N)) _).trans ?_
        refine (congrArg (fun a => k0_pay2 (F := Ideal) (grid0.coords (⟨n + 1, hn⟩ : Fin cfg0.N)) (idxBlk V c (⟨n + 1, hn⟩ : Fin cfg0.N)) a (tblBlk V c (⟨n + 1, hn⟩ : Fin cfg0.N))) ih).trans ?_
        exact step_next V c (⟨n + 1, hn⟩ : Fin cfg0.N) h0
      · rw [outsAt0_B V c (⟨n + 1, hn⟩ : Fin cfg0.N) h0 h1]
        dsimp only [outs0_B]
        refine (acc_next (F := Ideal) c (grid0.coords (⟨n + 1, hn⟩ : Fin cfg0.N)) (ms0_0 (⟨n + 1, hn⟩ : Fin cfg0.N)) (hs0_0 (⟨n + 1, hn⟩ : Fin cfg0.N)) (ms0_1 (⟨n + 1, hn⟩ : Fin cfg0.N)) (hs0_1 (⟨n + 1, hn⟩ : Fin cfg0.N)) (ms0_2 (⟨n + 1, hn⟩ : Fin cfg0.N)) (hs0_2 (⟨n + 1, hn⟩ : Fin cfg0.N)) scM0_0 (Memref.isWhole_whole _)
          (fun h => h0 ((hcond0_0 (⟨n + 1, hn⟩ : Fin cfg0.N)).mp h)) (fun h => h1 ((hcond0_1 (⟨n + 1, hn⟩ : Fin cfg0.N)).mp h))
          (iblk0 V c 0 (⟨n + 1, hn⟩ : Fin cfg0.N)) (iblk0 V c 1 (⟨n + 1, hn⟩ : Fin cfg0.N)) _).trans ?_
        refine (congrArg (fun a => k0_pay2 (F := Ideal) (grid0.coords (⟨n + 1, hn⟩ : Fin cfg0.N)) (idxBlk V c (⟨n + 1, hn⟩ : Fin cfg0.N)) a (tblBlk V c (⟨n + 1, hn⟩ : Fin cfg0.N))) ih).trans ?_
        exact step_next V c (⟨n + 1, hn⟩ : Fin cfg0.N) h0

theorem out_block (c : Dev nD) (t : Fin cfg0.N) (h15 : t.val % 16 = 15) (p : Fin 2560) (q : Fin 128) (e : Fin 640000)
    (he : e.val = 2560 * (t.val / 16) + p.val) :
    ((dat0 V c).after 2 t : Vec Ideal S2560x128 .bf16) (ix2 p q) = Cert.Spec.srcft (idxArr V c) (tblArr V c) (ix2 e q) := by
  have h0 : ¬t.val % 16 = 0 := by omega
  have hprev := acc_eq V c (t.val - 1) (Nat.lt_of_le_of_lt (Nat.sub_le _ _) t.isLt)
  have e1 : ((dat0 V c).after 2 t : Vec Ideal S2560x128 .bf16) = accAt V c t.val := by
    rw [after0_2, outsAt0_C V c t h0 h15]
    dsimp only [outs0_C]
    refine (out_last (F := Ideal) c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h15) (iblk0 V c 0 t) (iblk0 V c 1 t) _).trans ?_
    refine (pay3_eq _).trans ?_
    refine (congrArg (fun a => k0_pay2 (F := Ideal) (grid0.coords t) (idxBlk V c t) a (tblBlk V c t)) hprev).trans ?_
    exact step_next V c t h0
  rw [e1]
  exact accAt_last V c t h15 p q e he

theorem srcft_final (c : Dev nD) :
    (dat0 (F := Ideal) V c).arrAt 2 cfg0.N = Cert.Spec.srcft (V c main_v3) (V c main_v1) :=
  arrAt2_eq_srcft c (dat0 V c) (idxArr V c) (tblArr V c) (out_block V c)

end Cert.KernelIdeal.Val0

end
-- ==== Proof.KI.R1Pieces.lean ====
import proofs.«411513_j21534966022316_1_alg».proof.Proof.KI.R1
import Idealize.ShloMosaic.Lib.Pipeline.Value

set_option maxRecDepth 16384

noncomputable section

namespace Cert.KernelIdeal.Val1

open Cert.KernelIdeal Cert.KernelIdeal.Gen Cert.KernelIdeal.Fr
open Idealize.ShloMosaic Idealize.ShloMosaic.TcCoe Idealize.ShloMosaic.Tactic
open Idealize.SL Idealize.SL.Sem

variable {F : FTy → Type} [FloatOps F]

theorem hz : (![0, 0] : Fin 2 → Nat) = fun _ => 0 := funext fun a => by fin_cases a <;> rfl

section Pieces
variable (c : Dev nD) (i : grid1.Coords)
  (arg2 : Memref sig .tc .vmem S1x3200 .i32) (harg2 : arg2.IsWhole) (arg3 : Memref sig .tc .vmem S3200x128 .bf16) (harg3 : arg3.IsWhole)
  (arg4 : Memref sig .tc .vmem S3200x32 .f32) (harg4 : arg4.IsWhole) (arg5 : Memref sig .tc .vmem S1x128 .f32) (harg5 : arg5.IsWhole)
  (arg6 : Memref sig .tc .vmem S2000x128 .f32) (harg6 : arg6.IsWhole) (arg7 : Memref sig .tc .vmem S2000x32 .f32) (harg7 : arg7.IsWhole)
  (arg8 : Memref sig .tc .vmem S2000x128 .f32) (harg8 : arg8.IsWhole) (arg9 : Memref sig .tc .vmem S2000x32 .f32) (harg9 : arg9.IsWhole)
  (x0 : Vec F S1x3200 .i32) (x1 : Vec F S3200x128 .bf16) (x2 : Vec F S3200x32 .f32) (x3 : Vec F S1x128 .f32)
  (xs0 : Vec F S2000x128 .f32) (xs1 : Vec F S2000x32 .f32)

theorem soutA_0 (hc0 : cond1_0 i) (hc1 : ¬cond1_1 i) :
    sout1_A_0 c i arg2 harg2 arg3 harg3 arg4 harg4 arg5 harg5 arg6 harg6 arg7 harg7 arg8 harg8 arg9 harg9 hc0 hc1 x0 x1 x2 x3 = k1_pay5 i x0 (k1_pay2 (F := F)) x1 := by
  unfold sout1_A_0
  rw [View.read_writes_eq_canon _ _ _ (scover1_A_0 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S2000x128) hz]
  simp only [View.readCov_unit_zero (S := S2000x128) _ hz, View.readCov_unit_zero (S := S2000x32) _ hz, View.readAt_eq_ld,
    harg2.read_unread, harg3.read_unread, harg4.read_unread, harg5.read_unread, harg8.read_unread, harg9.read_unread,
    View.ld_unit_zero (S := S1x3200) hz, View.ld_unit_zero (S := S3200x128) hz, View.ld_unit_zero (S := S3200x32) hz,
    View.ld_unit_zero (S := S1x128) hz, View.ld_unit_zero (S := S2000x128) hz, View.ld_unit_zero (S := S2000x32) hz]

theorem soutA_1 (hc0 : cond1_0 i) (hc1 : ¬cond1_1 i) :
    sout1_A_1 c i arg2 harg2 arg3 harg3 arg4 harg4 arg5 harg5 arg6 harg6 arg7 harg7 arg8 harg8 arg9 harg9 hc0 hc1 x0 x1 x2 x3 = k1_pay6 i x0 x2 (k1_pay3 (F := F)) := by
  unfold sout1_A_1
  rw [View.read_writes_eq_canon _ _ _ (scover1_A_1 c i arg2 harg2 arg3 harg3 arg4 harg4 arg5 harg5 arg6 harg6 arg7 harg7 arg8 harg8 arg9 harg9 hc0 hc1 x0 x1 x2 x3)]
  unfold kernelRun1_A
  dsimp only
  sl_unfold_words
  rw [View.canon_cons_unit_zero (S := S2000x32) hz]
  simp only [View.readCov_unit_zero (S := S2000x128) _ hz, View.readCov_unit_zero (S := S2000x32) _ hz, View.readAt_eq_ld,
    harg2.read_unread, harg3.read_unread, harg4.read_unread, harg5.read_unread, harg8.read_unread, harg9.read_unread,
    View.ld_unit_zero (S := S1x3200) hz, View.ld_unit_zero (S := S3200x128) hz, View.ld_unit_zero (S := S3200x32) hz,
    View.ld_unit_zero (S := S1x128) hz, View.ld_unit_zero (S := S2000x128) hz, View.ld_unit_zero (S := S2000x32) hz]

theorem soutB_0 (hc0 : ¬cond1_0 i) (hc1 : ¬cond1_1 i) :
    sout1_B_0 c i arg2 harg2 arg3 harg3 arg4 harg4 arg5 harg5 arg6 harg6 arg7 harg7 arg8 harg8 arg9 harg9 hc0 hc1 x0 x1 x2 x3 xs0 xs1 = k1_pay5 i x0 xs0 x1 := by
  unfold sout1_B_0
  rw [View.read_writes_eq_canon _ _ _ (scover1_B_0 c i arg2 harg2 arg3 harg3 arg4 harg4 arg5 harg5 arg6 harg6 arg7 harg7 arg8 harg8 arg9 harg9 hc0 hc1 x0 x1 x2 x3 xs0 xs1)]
  unfold kernelRun1_B
  dsimp only
  sl_unfold_words
  rw [View.canon_unit_zero hz]
  simp only [View.readCov_unit_zero (S := S2000x128) _ hz, View.readCov_unit_zero (S := S2000x32) _ hz, View.readAt_eq_ld,
    harg2.read_unread, harg3.read_unread, harg4.read_unread, harg5.read_unread, harg8.read_unread, harg9.read_unread,
    View.ld_unit_zero (S := S1x3200) hz, View.ld_unit_zero (S := S3200x128) hz, View.ld_unit_zero (S := S3200x32) hz,
    View.ld_unit_zero (S := S1x128) hz, View.ld_unit_zero (S := S2000x128) hz, View.ld_unit_zero (S := S2000x32) hz]

theorem soutB_1 (hc0 : ¬cond1_0 i) (hc1 : ¬cond1_1 i) :
    sout1_B_1 c i arg2 harg2 arg3 harg3 arg4 harg4 arg5 harg5 arg6 harg6 arg7 harg7 arg8 harg8 arg9 harg9 hc0 hc1 x0 x1 x2 x3 xs0 xs1 = k1_pay6 i x0 x2 xs1 := by
  unfold sout1_B_1
  rw [View.read_writes_eq_canon _ _ _ (scover1_B_1 c i arg2 harg2 arg3 harg3 arg4 harg4 arg5 harg5 arg6 harg6 arg7 harg7 arg8 harg8 arg9 harg9 hc0 hc1 x0 x1 x2 x3 xs0 xs1)]
  unfold kernelRun1_B
  dsimp only
  sl_unfold_words
  rw [View.canon_unit_zero hz]
  simp only [View.readCov_unit_zero (S := S2000x128) _ hz, View.readCov_unit_zero (S := S2000x32) _ hz, View.readAt_eq_ld,
    harg2.read_unread, harg3.read_unread, harg4.read_unread, harg5.read_unread, harg8.read_unread, harg9.read_unread,
    View.ld_unit_zero (S := S1x3200) hz, View.ld_unit_zero (S := S3200x128) hz, View.ld_unit_zero (S := S3200x32) hz,
    View.ld_unit_zero (S := S1x128) hz, View.ld_unit_zero (S := S2000x128) hz, View.ld_unit_zero (S := S2000x32) hz]

theorem soutC_0 (hc0 : ¬cond1_0 i) (hc1 : cond1_1 i) :
    sout1_C_0 c i arg2 harg2 arg3 harg3 arg4 harg4 arg5 harg5 arg6 harg6 arg7 harg7 arg8 harg8 arg9 harg9 hc0 hc1 x0 x1 x2 x3 xs0 xs1 = k1_pay5 i x0 xs0 x1 := by
  unfold sout1_C_0
  rw [View.read_writes_eq_canon _ _ _ (scover1_C_0 c i arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero hz]
  simp only [View.readCov_unit_zero (S := S2000x128) _ hz, View.readCov_unit_zero (S := S2000x32) _ hz, View.readAt_eq_ld,
    harg2.read_unread, harg3.read_unread, harg4.read_unread, harg5.read_unread, harg8.read_unread, harg9.read_unread,
    View.ld_unit_zero (S := S1x3200) hz, View.ld_unit_zero (S := S3200x128) hz, View.ld_unit_zero (S := S3200x32) hz,
    View.ld_unit_zero (S := S1x128) hz, View.ld_unit_zero (S := S2000x128) hz, View.ld_unit_zero (S := S2000x32) hz]

theorem soutC_1 (hc0 : ¬cond1_0 i) (hc1 : cond1_1 i) :
    sout1_C_1 c i arg2 harg2 arg3 harg3 arg4 harg4 arg5 harg5 arg6 harg6 arg7 harg7 arg8 harg8 arg9 harg9 hc0 hc1 x0 x1 x2 x3 xs0 xs1 = k1_pay6 i x0 x2 xs1 := by
  unfold sout1_C_1
  rw [View.read_writes_eq_canon _ _ _ (scover1_C_1 c i arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero hz]
  simp only [View.readCov_unit_zero (S := S2000x128) _ hz, View.readCov_unit_zero (S := S2000x32) _ hz, View.readAt_eq_ld,
    harg2.read_unread, harg3.read_unread, harg4.read_unread, harg5.read_unread, harg8.read_unread, harg9.read_unread,
    View.ld_unit_zero (S := S1x3200) hz, View.ld_unit_zero (S := S3200x128) hz, View.ld_unit_zero (S := S3200x32) hz,
    View.ld_unit_zero (S := S1x128) hz, View.ld_unit_zero (S := S2000x128) hz, View.ld_unit_zero (S := S2000x32) hz]

theorem outC_4 (hc0 : ¬cond1_0 i) (hc1 : cond1_1 i) :
    out1_C_4 c i arg2 harg2 arg3 harg3 arg4 harg4 arg5 harg5 arg6 harg6 arg7 harg7 arg8 harg8 arg9 harg9 hc0 hc1 x0 x1 x2 x3 xs0 xs1 = k1_pay1 (k1_pay5 i x0 xs0 x1) x3 := by
  unfold out1_C_4
  rw [View.read_writes_eq_canon _ _ _ (cover1_C_4 c i arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero hz]
  simp only [View.readCov_unit_zero (S := S2000x128) _ hz, View.readCov_unit_zero (S := S2000x32) _ hz, View.readAt_eq_ld,
    harg2.read_unread, harg3.read_unread, harg4.read_unread, harg5.read_unread, harg8.read_unread, harg9.read_unread,
    View.ld_unit_zero (S := S1x3200) hz, View.ld_unit_zero (S := S3200x128) hz, View.ld_unit_zero (S := S3200x32) hz,
    View.ld_unit_zero (S := S1x128) hz, View.ld_unit_zero (S := S2000x128) hz, View.ld_unit_zero (S := S2000x32) hz]

theorem outC_5 (hc0 : ¬cond1_0 i) (hc1 : cond1_1 i) :
    out1_C_5 c i arg2 harg2 arg3 harg3 arg4 harg4 arg5 harg5 arg6 harg6 arg7 harg7 arg8 harg8 arg9 harg9 hc0 hc1 x0 x1 x2 x3 xs0 xs1 = k1_pay6 i x0 x2 xs1 := by
  unfold out1_C_5
  rw [View.read_writes_eq_canon _ _ _ (cover1_C_5 c i arg2 harg2 arg3 harg3 arg4 harg4 arg5 harg5 arg6 harg6 arg7 harg7 arg8 harg8 arg9 harg9 hc0 hc1 x0 x1 x2 x3 xs0 xs1)]
  unfold kernelRun1_C
  dsimp only
  sl_unfold_words
  rw [View.canon_unit_zero hz]
  simp only [View.readCov_unit_zero (S := S2000x128) _ hz, View.readCov_unit_zero (S := S2000x32) _ hz, View.readAt_eq_ld,
    harg2.read_unread, harg3.read_unread, harg4.read_unread, harg5.read_unread, harg8.read_unread, harg9.read_unread,
    View.ld_unit_zero (S := S1x3200) hz, View.ld_unit_zero (S := S3200x128) hz, View.ld_unit_zero (S := S3200x32) hz,
    View.ld_unit_zero (S := S1x128) hz, View.ld_unit_zero (S := S2000x128) hz, View.ld_unit_zero (S := S2000x32) hz]

theorem accA (hc0 : cond1_0 i) (hc1 : ¬cond1_1 i) :
    (outs1_A c i arg2 harg2 arg3 harg3 arg4 harg4 arg5 harg5 arg6 harg6 arg7 harg7 arg8 harg8 arg9 harg9 hc0 hc1 x0 x1 x2 x3).2.2
      = (k1_pay5 i x0 (k1_pay2 (F := F)) x1, k1_pay6 i x0 x2 (k1_pay3 (F := F))) := by
  unfold outs1_A
  exact congrArg₂ Prod.mk (soutA_0 c i arg2 harg2 arg3 harg3 arg4 harg4 arg5 harg5 arg6 harg6 arg7 harg7 arg8 harg8 arg9 harg9 x0 x1 x2 x3 hc0 hc1) (soutA_1 c i arg2 harg2 arg3 harg3 arg4 harg4 arg5 harg5 arg6 harg6 arg7 harg7 arg8 harg8 arg9 harg9 x0 x1 x2 x3 hc0 hc1)

theorem accB (hc0 : ¬cond1_0 i) (hc1 : ¬cond1_1 i) :
    (outs1_B c i arg2 harg2 arg3 harg3 arg4 harg4 arg5 harg5 arg6 harg6 arg7 harg7 arg8 harg8 arg9 harg9 hc0 hc1 x0 x1 x2 x3 xs0 xs1).2.2
      = (k1_pay5 i x0 xs0 x1, k1_pay6 i x0 x2 xs1) := by
  unfold outs1_B
  exact congrArg₂ Prod.mk (soutB_0 c i arg2 harg2 arg3 harg3 arg4 harg4 arg5 harg5 arg6 harg6 arg7 harg7 arg8 harg8 arg9 harg9 x0 x1 x2 x3 xs0 xs1 hc0 hc1) (soutB_1 c i arg2 harg2 arg3 harg3 arg4 harg4 arg5 harg5 arg6 harg6 arg7 harg7 arg8 harg8 arg9 harg9 x0 x1 x2 x3 xs0 xs1 hc0 hc1)

theorem outsC (hc0 : ¬cond1_0 i) (hc1 : cond1_1 i) :
    outs1_C c i arg2 harg2 arg3 harg3 arg4 harg4 arg5 harg5 arg6 harg6 arg7 harg7 arg8 harg8 arg9 harg9 hc0 hc1 x0 x1 x2 x3 xs0 xs1
      = (k1_pay1 (k1_pay5 i x0 xs0 x1) x3, k1_pay6 i x0 x2 xs1, k1_pay5 i x0 xs0 x1, k1_pay6 i x0 x2 xs1) := by
  unfold outs1_C
  rw [outC_4 c i arg2 harg2 arg3 harg3 arg4 harg4 arg5 harg5 arg6 harg6 arg7 harg7 arg8 harg8 arg9 harg9 x0 x1 x2 x3 xs0 xs1 hc0 hc1, outC_5 c i arg2 harg2 arg3 harg3 arg4 harg4 arg5 harg5 arg6 harg6 arg7 harg7 arg8 harg8 arg9 harg9 x0 x1 x2 x3 xs0 xs1 hc0 hc1,
    soutC_0 c i arg2 harg2 arg3 harg3 arg4 harg4 arg5 harg5 arg6 harg6 arg7 harg7 arg8 harg8 arg9 harg9 x0 x1 x2 x3 xs0 xs1 hc0 hc1, soutC_1 c i arg2 harg2 arg3 harg3 arg4 harg4 arg5 harg5 arg6 harg6 arg7 harg7 arg8 harg8 arg9 harg9 x0 x1 x2 x3 xs0 xs1 hc0 hc1]

end Pieces

end Cert.KernelIdeal.Val1

end
-- ==== Proof.KI.R1Pay.lean ====
import proofs.«411513_j21534966022316_1_alg».proof.Proof.Gen.KernelIdeal.Skeleton
import proofs.«411513_j21534966022316_1_alg».proof.Proof.Spec
import Idealize.ShloMosaic.Lib.ValueIdx
import Idealize.ShloMosaic.Lib.Pipeline.Value
import Idealize.ShloMosaic.Lib.KernelVsHost
import Idealize.ShloMosaic.PureOps.Ideal.Laws

noncomputable section

open scoped BigOperators
open Idealize.ShloMosaic Idealize.ShloMosaic.ValueIdx Idealize.SL.Sem

namespace Cert.KernelIdeal.Val1

open Cert.KernelIdeal Cert.KernelIdeal.Gen Cert.Spec

theorem lhs128_0 (i : S2000x128.Idx) (q : dot_S2000x3200_S3200x128_S2000x128_1_0_0_1_n_n.contr.Idx) :
    (dot_S2000x3200_S3200x128_S2000x128_1_0_0_1_n_n.lhsIdx i q 0).val = (i 0).val := by
  unfold DotDims.lhsIdx
  rw [dif_neg (show ¬(0 : Fin S2000x3200.rank) ∈ dot_S2000x3200_S3200x128_S2000x128_1_0_0_1_n_n.lhsBatch by decide), dif_pos (show (0 : Fin S2000x3200.rank) ∈ dot_S2000x3200_S3200x128_S2000x128_1_0_0_1_n_n.lhsNonContracting by decide)]
  rfl
theorem lhs128_1 (i : S2000x128.Idx) (q : dot_S2000x3200_S3200x128_S2000x128_1_0_0_1_n_n.contr.Idx) :
    (dot_S2000x3200_S3200x128_S2000x128_1_0_0_1_n_n.lhsIdx i q 1).val = (q ⟨0, by decide⟩).val :=
  dot_S2000x3200_S3200x128_S2000x128_1_0_0_1_n_n.lhsIdx_val_of_single rfl i q
theorem rhs128_0 (i : S2000x128.Idx) (q : dot_S2000x3200_S3200x128_S2000x128_1_0_0_1_n_n.contr.Idx) :
    (dot_S2000x3200_S3200x128_S2000x128_1_0_0_1_n_n.rhsIdx i q 0).val = (q ⟨0, by decide⟩).val :=
  dot_S2000x3200_S3200x128_S2000x128_1_0_0_1_n_n.rhsIdx_val_of_single rfl i q
theorem rhs128_1 (i : S2000x128.Idx) (q : dot_S2000x3200_S3200x128_S2000x128_1_0_0_1_n_n.contr.Idx) :
    (dot_S2000x3200_S3200x128_S2000x128_1_0_0_1_n_n.rhsIdx i q 1).val = (i 1).val := by
  unfold DotDims.rhsIdx
  rw [dif_neg (show ¬(1 : Fin S3200x128.rank) ∈ dot_S2000x3200_S3200x128_S2000x128_1_0_0_1_n_n.rhsBatch by decide), dif_pos (show (1 : Fin S3200x128.rank) ∈ dot_S2000x3200_S3200x128_S2000x128_1_0_0_1_n_n.rhsNonContracting by decide)]
  rfl

theorem mm128_apply {φ : FTy} (l : FVec Ideal S2000x3200 .bf16) (r : FVec Ideal S3200x128 φ) (p : Fin 2000) (q : Fin 128) :
    matmul dot_S2000x3200_S3200x128_S2000x128_1_0_0_1_n_n none l r (constant S2000x128 .f32 0x00000000#32) (ix2 p q)
      = ∑ k : Fin 3200, l (ix2 p k) * r (ix2 k q) := by
  simp only [matmul]
  rw [Ideal.matmul_constant_zero_apply, ← Equiv.sum_comp (contrEquiv1 dot_S2000x3200_S3200x128_S2000x128_1_0_0_1_n_n 3200 rfl rfl).symm]
  refine Finset.sum_congr rfl fun k _ => ?_
  have hk := contrEquiv1_symm_val dot_S2000x3200_S3200x128_S2000x128_1_0_0_1_n_n 3200 rfl rfl k
  have el : dot_S2000x3200_S3200x128_S2000x128_1_0_0_1_n_n.lhsIdx (ix2 p q) ((contrEquiv1 dot_S2000x3200_S3200x128_S2000x128_1_0_0_1_n_n 3200 rfl rfl).symm k) = ix2 p k := funext fun a => Fin.ext (by
    match a with
    | ⟨0, _⟩ => exact lhs128_0 _ _
    | ⟨1, _⟩ => exact (lhs128_1 _ _).trans hk)
  have er : dot_S2000x3200_S3200x128_S2000x128_1_0_0_1_n_n.rhsIdx (ix2 p q) ((contrEquiv1 dot_S2000x3200_S3200x128_S2000x128_1_0_0_1_n_n 3200 rfl rfl).symm k) = ix2 k q := funext fun a => Fin.ext (by
    match a with
    | ⟨0, _⟩ => exact (rhs128_0 _ _).trans hk
    | ⟨1, _⟩ => exact rhs128_1 _ _)
  rw [el, er]

theorem lhs32_0 (i : S2000x32.Idx) (q : dot_S2000x3200_S3200x32_S2000x32_1_0_0_1_n_n.contr.Idx) :
    (dot_S2000x3200_S3200x32_S2000x32_1_0_0_1_n_n.lhsIdx i q 0).val = (i 0).val := by
  unfold DotDims.lhsIdx
  rw [dif_neg (show ¬(0 : Fin S2000x3200.rank) ∈ dot_S2000x3200_S3200x32_S2000x32_1_0_0_1_n_n.lhsBatch by decide), dif_pos (show (0 : Fin S2000x3200.rank) ∈ dot_S2000x3200_S3200x32_S2000x32_1_0_0_1_n_n.lhsNonContracting by decide)]
  rfl
theorem lhs32_1 (i : S2000x32.Idx) (q : dot_S2000x3200_S3200x32_S2000x32_1_0_0_1_n_n.contr.Idx) :
    (dot_S2000x3200_S3200x32_S2000x32_1_0_0_1_n_n.lhsIdx i q 1).val = (q ⟨0, by decide⟩).val :=
  dot_S2000x3200_S3200x32_S2000x32_1_0_0_1_n_n.lhsIdx_val_of_single rfl i q
theorem rhs32_0 (i : S2000x32.Idx) (q : dot_S2000x3200_S3200x32_S2000x32_1_0_0_1_n_n.contr.Idx) :
    (dot_S2000x3200_S3200x32_S2000x32_1_0_0_1_n_n.rhsIdx i q 0).val = (q ⟨0, by decide⟩).val :=
  dot_S2000x3200_S3200x32_S2000x32_1_0_0_1_n_n.rhsIdx_val_of_single rfl i q
theorem rhs32_1 (i : S2000x32.Idx) (q : dot_S2000x3200_S3200x32_S2000x32_1_0_0_1_n_n.contr.Idx) :
    (dot_S2000x3200_S3200x32_S2000x32_1_0_0_1_n_n.rhsIdx i q 1).val = (i 1).val := by
  unfold DotDims.rhsIdx
  rw [dif_neg (show ¬(1 : Fin S3200x32.rank) ∈ dot_S2000x3200_S3200x32_S2000x32_1_0_0_1_n_n.rhsBatch by decide), dif_pos (show (1 : Fin S3200x32.rank) ∈ dot_S2000x3200_S3200x32_S2000x32_1_0_0_1_n_n.rhsNonContracting by decide)]
  rfl

theorem mm32_apply {φ : FTy} (l : FVec Ideal S2000x3200 .bf16) (r : FVec Ideal S3200x32 φ) (p : Fin 2000) (q : Fin 32) :
    matmul dot_S2000x3200_S3200x32_S2000x32_1_0_0_1_n_n none l r (constant S2000x32 .f32 0x00000000#32) (ix2 p q)
      = ∑ k : Fin 3200, l (ix2 p k) * r (ix2 k q) := by
  simp only [matmul]
  rw [Ideal.matmul_constant_zero_apply, ← Equiv.sum_comp (contrEquiv1 dot_S2000x3200_S3200x32_S2000x32_1_0_0_1_n_n 3200 rfl rfl).symm]
  refine Finset.sum_congr rfl fun k _ => ?_
  have hk := contrEquiv1_symm_val dot_S2000x3200_S3200x32_S2000x32_1_0_0_1_n_n 3200 rfl rfl k
  have el : dot_S2000x3200_S3200x32_S2000x32_1_0_0_1_n_n.lhsIdx (ix2 p q) ((contrEquiv1 dot_S2000x3200_S3200x32_S2000x32_1_0_0_1_n_n 3200 rfl rfl).symm k) = ix2 p k := funext fun a => Fin.ext (by
    match a with
    | ⟨0, _⟩ => exact lhs32_0 _ _
    | ⟨1, _⟩ => exact (lhs32_1 _ _).trans hk)
  have er : dot_S2000x3200_S3200x32_S2000x32_1_0_0_1_n_n.rhsIdx (ix2 p q) ((contrEquiv1 dot_S2000x3200_S3200x32_S2000x32_1_0_0_1_n_n 3200 rfl rfl).symm k) = ix2 k q := funext fun a => Fin.ext (by
    match a with
    | ⟨0, _⟩ => exact (rhs32_0 _ _).trans hk
    | ⟨1, _⟩ => exact rhs32_1 _ _)
  rw [el, er]

theorem node_word (a p : Nat) :
    IntOp.addi (BitVec.ofNat 32 p) (Scalar.muli (BitVec.ofNat 32 a) 2000#32) = BitVec.ofNat 32 (2000 * a + p) := by
  show BitVec.ofNat 32 p + BitVec.ofNat 32 a * 2000#32 = _
  apply BitVec.eq_of_toNat_eq
  simp only [BitVec.toNat_add, BitVec.toNat_mul, BitVec.toNat_ofNat]
  omega

theorem bit_real (a b : BitVec 32) :
    ((((IntOp.cmpi .eq a b).setWidth 32).toInt : ℝ) : EReal) = oh a b := by
  rw [toInt_setWidth_bit]
  unfold oh IntOp.cmpi
  by_cases h : a = b
  · subst h; simp
  · simp [h]

theorem pay4_apply (i : grid1.Coords) (x0 : Vec Ideal S1x3200 .i32) (p : Fin 2000) (k : Fin 3200) :
    k1_pay4 (F := Ideal) i x0 (ix2 p k) = oh (BitVec.ofNat 32 (2000 * (i 0).val + p.val)) (x0 (ix2 (0 : Fin 1) k)) := by
  have hi : iota .tc S2000x3200 32 [0] iota_S2000x3200_d0_w32 (ix2 p k) = BitVec.ofNat 32 p.val :=
    iota_single_apply .tc S2000x3200 32 0 _ (ix2 p k)
  have hb : broadcastTo S2000x3200 (shapeCast S1x3200 x0 shapeCasts_S1x3200_S1x3200) broadcasts_S1x3200_S2000x3200 (ix2 p k)
      = x0 (ix2 (0 : Fin 1) k) := by
    rw [shapeCast_self]
    exact broadcastTo_apply x0 _ (ix2 p k) (ix2 (0 : Fin 1) k) (fun a => by
      match a with
      | ⟨0, _⟩ => rfl
      | ⟨1, _⟩ => rfl)
  unfold k1_pay4
  show ((((IntOp.cmpi .eq (IntOp.addi (iota .tc S2000x3200 32 [0] iota_S2000x3200_d0_w32 (ix2 p k))
      (Scalar.muli (BitVec.ofNat 32 (i 0).val) 2000#32))
      (broadcastTo S2000x3200 (shapeCast S1x3200 x0 shapeCasts_S1x3200_S1x3200) broadcasts_S1x3200_S2000x3200 (ix2 p k))).setWidth 32).toInt : ℝ) : EReal) = _
  rw [hi, hb, node_word, bit_real]

theorem pay2_apply (p : Fin 2000) (q : Fin 128) : k1_pay2 (F := Ideal) (ix2 p q) = 0 := by
  unfold k1_pay2
  rw [shapeCast_self]
  exact Ideal.ofBits_zero_f32

theorem pay3_apply (p : Fin 2000) (q : Fin 32) : k1_pay3 (F := Ideal) (ix2 p q) = 0 := by
  unfold k1_pay3
  rw [shapeCast_self]
  exact Ideal.ofBits_zero_f32

theorem pay1_apply (v : Vec Ideal S2000x128 .f32) (w : Vec Ideal S1x128 .f32) (p : Fin 2000) (q : Fin 128) :
    k1_pay1 (F := Ideal) v w (ix2 p q) = v (ix2 p q) * w (ix2 (0 : Fin 1) q) := by
  unfold k1_pay1
  show v (ix2 p q) * broadcastTo S2000x128 w broadcasts_S1x128_S2000x128 (ix2 p q) = _
  exact congrArg (v (ix2 p q) * ·) (broadcastTo_apply w _ (ix2 p q) (ix2 (0 : Fin 1) q) (fun a => by
    match a with
    | ⟨0, _⟩ => rfl
    | ⟨1, _⟩ => rfl))

theorem pay5_apply (i : grid1.Coords) (x0 : Vec Ideal S1x3200 .i32) (acc : Vec Ideal S2000x128 .f32)
    (x1 : Vec Ideal S3200x128 .bf16) (p : Fin 2000) (q : Fin 128) :
    k1_pay5 (F := Ideal) i x0 acc x1 (ix2 p q)
      = acc (ix2 p q) + ∑ k : Fin 3200,
          oh (BitVec.ofNat 32 (2000 * (i 0).val + p.val)) (x0 (ix2 (0 : Fin 1) k)) * x1 (ix2 k q) := by
  unfold k1_pay5
  rw [shapeCast_self, shapeCast_self]
  show acc (ix2 p q) + matmul dot_S2000x3200_S3200x128_S2000x128_1_0_0_1_n_n none (k1_pay4 (F := Ideal) i x0) x1 (constant S2000x128 .f32 0x00000000#32) (ix2 p q) = _
  rw [mm128_apply]
  exact congrArg (acc (ix2 p q) + ·) (Finset.sum_congr rfl fun k _ => by rw [pay4_apply])

theorem pay6_apply (i : grid1.Coords) (x0 : Vec Ideal S1x3200 .i32) (x2 : Vec Ideal S3200x32 .f32)
    (acc : Vec Ideal S2000x32 .f32) (p : Fin 2000) (q : Fin 32) :
    k1_pay6 (F := Ideal) i x0 x2 acc (ix2 p q)
      = acc (ix2 p q) + ∑ k : Fin 3200,
          oh (BitVec.ofNat 32 (2000 * (i 0).val + p.val)) (x0 (ix2 (0 : Fin 1) k)) * x2 (ix2 k q) := by
  unfold k1_pay6
  rw [shapeCast_self, shapeCast_self]
  show acc (ix2 p q) + matmul dot_S2000x3200_S3200x32_S2000x32_1_0_0_1_n_n none (k1_pay4 (F := Ideal) i x0)
      (truncf .bf16 x2 bitsLt_bf16_f32) (constant S2000x32 .f32 0x00000000#32) (ix2 p q) = _
  rw [mm32_apply]
  exact congrArg (acc (ix2 p q) + ·) (Finset.sum_congr rfl fun k _ => by rw [pay4_apply]; rfl)

end Cert.KernelIdeal.Val1

end
-- ==== Proof.KI.R1Cover.lean ====
import proofs.«411513_j21534966022316_1_alg».proof.Proof.Gen.KernelIdeal.Launch
import proofs.«411513_j21534966022316_1_alg».proof.Proof.Gen.KernelIdeal.Points
import Idealize.ShloMosaic.Lib.Pipeline.Value
import Idealize.ShloMosaic.Lib.ValueIdx

set_option maxRecDepth 16384

noncomputable section

namespace Cert.KernelIdeal.Val1

open Cert.KernelIdeal Cert.KernelIdeal.Gen
open Idealize.ShloMosaic Idealize.ShloMosaic.TcCoe Idealize.ShloMosaic.ValueIdx
open Idealize.SL Idealize.SL.Sem
open Idealize.ShloMosaic.Rounds
open Idealize.ShloMosaic.Pipeline (Dat)

def nodeOf (t : Fin cfg1.N) (p : Fin 2000) : Fin 50000 :=
  ⟨2000 * (t.val / 200) + p.val, by have := t.isLt; have hN : cfg1.N = 5000 := N_1; have := p.isLt; omega⟩

theorem idx4 : ∀ t : Fin cfg1.N, win1_4.index t (0 : Fin 2) = t.val / 200 ∧ win1_4.index t (1 : Fin 2) = 0 :=
  (by decide +kernel : ∀ t : Fin grid1.N, win1_4.index t (0 : Fin 2) = t.val / 200 ∧ win1_4.index t (1 : Fin 2) = 0)
theorem idx5 : ∀ t : Fin cfg1.N, win1_5.index t (0 : Fin 2) = t.val / 200 ∧ win1_5.index t (1 : Fin 2) = 0 :=
  (by decide +kernel : ∀ t : Fin grid1.N, win1_5.index t (0 : Fin 2) = t.val / 200 ∧ win1_5.index t (1 : Fin 2) = 0)

section
variable {c : Dev nD} (dat : Dat τ (Elt Ideal) Unit ℕ (UR sig nD τ) ℕ cfg1 c)

theorem mem_blk4 (t : Fin cfg1.N) (i : S50000x128.Idx) :
    i ∈ ((cfg1.win 4).blk t).view.set ↔ ∀ a : Fin 2, win1_4.index t a * S2000x128.size a ≤ (i a).val ∧ (i a).val < win1_4.index t a * S2000x128.size a + S2000x128.size a := by
  show i ∈ ((View.whole main_v8_0).slice (win1_4.rect t)).set ↔ _
  rw [View.set_slice_whole, Rect.mem_set_unit]
  exact Iff.rfl

theorem flushed4_eq (G : S50000x128.Idx → EReal)
    (hpt : ∀ t : Fin cfg1.N, t.val % 200 = 199 → ∀ (p : Fin 2000) (q : Fin 128),
      (dat.after 4 t : Vec Ideal S2000x128 .f32) (ix2 p q) = G (ix2 (nodeOf t p) q))
    (t : Fin cfg1.N) (hf : (cfg1.win 4).flush t = true) :
    dat.flushed 4 t = ((cfg1.win 4).blk t).view.read (Elt Ideal) G := by
  have ht : t.val % 200 = 199 := (flush1_4 t).mp hf
  obtain ⟨e0, e1⟩ := idx4 t
  funext j
  have hj0 : (j 0).val < 2000 := (j 0).isLt
  have hj1 : (j 1).val < 128 := (j 1).isLt
  have hx : (cfg1.win 4).xinj (grid1.coords t) j = ix2 (⟨(j 0).val, hj0⟩ : Fin 2000) (⟨(j 1).val, hj1⟩ : Fin 128) := by
    funext a
    match a with
    | ⟨0, _⟩ => rfl
    | ⟨1, _⟩ => rfl
  have he : ((cfg1.win 4).blk t).view.emb j = ix2 (nodeOf t ⟨(j 0).val, hj0⟩) (⟨(j 1).val, hj1⟩ : Fin 128) := by
    funext a
    apply Fin.ext
    match a with
    | ⟨0, _⟩ => show win1_4.index t (0 : Fin 2) * 2000 + 1 * (j 0).val = 2000 * (t.val / 200) + (j 0).val; rw [e0]; omega
    | ⟨1, _⟩ => show win1_4.index t (1 : Fin 2) * 128 + 1 * (j 1).val = (j 1).val; rw [e1]; omega
  show dat.after 4 t ((cfg1.win 4).xinj (grid1.coords t) j) = G (((cfg1.win 4).blk t).view.emb j)
  exact (congrArg (dat.after 4 t) hx).trans ((hpt t ht _ _).trans (congrArg G he).symm)

theorem cover4 (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 5000 := N_1
  have hlt : 200 * ((i 0).val / 2000) + 199 < cfg1.N := by omega
  obtain ⟨e0, e1⟩ := idx4 ⟨_, hlt⟩
  refine ⟨⟨_, hlt⟩, (flush1_4 _).mpr (by show (200 * ((i 0).val / 2000) + 199) % 200 = 199; omega), ?_⟩
  rw [mem_blk4]
  intro a
  match a with
  | ⟨0, _⟩ =>
    show win1_4.index ⟨_, hlt⟩ (0 : Fin 2) * 2000 ≤ (i 0).val ∧ (i 0).val < win1_4.index ⟨_, hlt⟩ (0 : Fin 2) * 2000 + 2000
    rw [e0]; show (200 * ((i 0).val / 2000) + 199) / 200 * 2000 ≤ (i 0).val ∧ (i 0).val < (200 * ((i 0).val / 2000) + 199) / 200 * 2000 + 2000
    omega
  | ⟨1, _⟩ =>
    show win1_4.index ⟨_, hlt⟩ (1 : Fin 2) * 128 ≤ (i 1).val ∧ (i 1).val < win1_4.index ⟨_, hlt⟩ (1 : Fin 2) * 128 + 128
    rw [e1]; omega

theorem arr4_of_points (G : S50000x128.Idx → EReal)
    (hpt : ∀ t : Fin cfg1.N, t.val % 200 = 199 → ∀ (p : Fin 2000) (q : Fin 128),
      (dat.after 4 t : Vec Ideal S2000x128 .f32) (ix2 p q) = G (ix2 (nodeOf t p) q)) :
    dat.arrAt 4 cfg1.N = G :=
  dat.arrAt_eq_of_cover 4 G (flushed4_eq dat G hpt) cover4

theorem mem_blk5 (t : Fin cfg1.N) (i : S50000x32.Idx) :
    i ∈ ((cfg1.win 5).blk t).view.set ↔ ∀ a : Fin 2, win1_5.index t a * S2000x32.size a ≤ (i a).val ∧ (i a).val < win1_5.index t a * S2000x32.size a + S2000x32.size a := by
  show i ∈ ((View.whole main_v8_1).slice (win1_5.rect t)).set ↔ _
  rw [View.set_slice_whole, Rect.mem_set_unit]
  exact Iff.rfl

theorem flushed5_eq (G : S50000x32.Idx → EReal)
    (hpt : ∀ t : Fin cfg1.N, t.val % 200 = 199 → ∀ (p : Fin 2000) (q : Fin 32),
      (dat.after 5 t : Vec Ideal S2000x32 .f32) (ix2 p q) = G (ix2 (nodeOf t p) q))
    (t : Fin cfg1.N) (hf : (cfg1.win 5).flush t = true) :
    dat.flushed 5 t = ((cfg1.win 5).blk t).view.read (Elt Ideal) G := by
  have ht : t.val % 200 = 199 := (flush1_5 t).mp hf
  obtain ⟨e0, e1⟩ := idx5 t
  funext j
  have hj0 : (j 0).val < 2000 := (j 0).isLt
  have hj1 : (j 1).val < 32 := (j 1).isLt
  have hx : (cfg1.win 5).xinj (grid1.coords t) j = ix2 (⟨(j 0).val, hj0⟩ : Fin 2000) (⟨(j 1).val, hj1⟩ : Fin 32) := by
    funext a
    match a with
    | ⟨0, _⟩ => rfl
    | ⟨1, _⟩ => rfl
  have he : ((cfg1.win 5).blk t).view.emb j = ix2 (nodeOf t ⟨(j 0).val, hj0⟩) (⟨(j 1).val, hj1⟩ : Fin 32) := by
    funext a
    apply Fin.ext
    match a with
    | ⟨0, _⟩ => show win1_5.index t (0 : Fin 2) * 2000 + 1 * (j 0).val = 2000 * (t.val / 200) + (j 0).val; rw [e0]; omega
    | ⟨1, _⟩ => show win1_5.index t (1 : Fin 2) * 32 + 1 * (j 1).val = (j 1).val; rw [e1]; omega
  show dat.after 5 t ((cfg1.win 5).xinj (grid1.coords t) j) = G (((cfg1.win 5).blk t).view.emb j)
  exact (congrArg (dat.after 5 t) hx).trans ((hpt t ht _ _).trans (congrArg G he).symm)

theorem cover5 (i : S50000x32.Idx) : ∃ t : Fin cfg1.N, (cfg1.win 5).flush t = true ∧ i ∈ ((cfg1.win 5).blk t).view.set := by
  have hi0 : (i 0).val < 50000 := (i 0).isLt
  have hi1 : (i 1).val < 32 := (i 1).isLt
  have hN : cfg1.N = 5000 := N_1
  have hlt : 200 * ((i 0).val / 2000) + 199 < cfg1.N := by omega
  obtain ⟨e0, e1⟩ := idx5 ⟨_, hlt⟩
  refine ⟨⟨_, hlt⟩, (flush1_5 _).mpr (by show (200 * ((i 0).val / 2000) + 199) % 200 = 199; omega), ?_⟩
  rw [mem_blk5]
  intro a
  match a with
  | ⟨0, _⟩ =>
    show win1_5.index ⟨_, hlt⟩ (0 : Fin 2) * 2000 ≤ (i 0).val ∧ (i 0).val < win1_5.index ⟨_, hlt⟩ (0 : Fin 2) * 2000 + 2000
    rw [e0]; show (200 * ((i 0).val / 2000) + 199) / 200 * 2000 ≤ (i 0).val ∧ (i 0).val < (200 * ((i 0).val / 2000) + 199) / 200 * 2000 + 2000
    omega
  | ⟨1, _⟩ =>
    show win1_5.index ⟨_, hlt⟩ (1 : Fin 2) * 32 ≤ (i 1).val ∧ (i 1).val < win1_5.index ⟨_, hlt⟩ (1 : Fin 2) * 32 + 32
    rw [e1]; omega

theorem arr5_of_points (G : S50000x32.Idx → EReal)
    (hpt : ∀ t : Fin cfg1.N, t.val % 200 = 199 → ∀ (p : Fin 2000) (q : Fin 32),
      (dat.after 5 t : Vec Ideal S2000x32 .f32) (ix2 p q) = G (ix2 (nodeOf t p) q)) :
    dat.arrAt 5 cfg1.N = G :=
  dat.arrAt_eq_of_cover 5 G (flushed5_eq dat G hpt) cover5

end

end Cert.KernelIdeal.Val1

end
-- ==== Proof.KI.R1Value.lean ====
import proofs.«411513_j21534966022316_1_alg».proof.Proof.KI.R1Pieces
import proofs.«411513_j21534966022316_1_alg».proof.Proof.KI.R1Pay
import proofs.«411513_j21534966022316_1_alg».proof.Proof.KI.R1Cover
import Idealize.ShloMosaic.Lib.Pipeline.Value

set_option maxRecDepth 16384

noncomputable section

open scoped BigOperators

namespace Cert.KernelIdeal.Val1

open Cert.KernelIdeal Cert.KernelIdeal.Gen Cert.KernelIdeal.Fr Cert.Spec
open Idealize.ShloMosaic Idealize.ShloMosaic.TcCoe Idealize.ShloMosaic.ValueIdx
open Idealize.SL Idealize.SL.Sem
open Idealize.ShloMosaic.Pipeline (Dat)

/-- Block j's share of node n's sum: over the block's 3200 edges, the indicator that the edge ends at n times the edge's row. -/
def term {N : Nat} (A : IVec ⟨2, ![1, 640000]⟩ 32) (B : (⟨2, ![640000, N]⟩ : Shape).Idx → EReal) (n : Nat) (q : Fin N) (j : Nat) : EReal :=
  if h : j < 200 then
    ∑ k : Fin 3200, oh (BitVec.ofNat 32 n) (A (ix2 (0 : Fin 1) (row200 ⟨j, h⟩ k))) * B (ix2 (row200 ⟨j, h⟩ k) q)
  else 0

theorem aggft_apply (A : IVec ⟨2, ![1, 640000]⟩ 32) (B : (⟨2, ![640000, 128]⟩ : Shape).Idx → EReal)
    (W : (⟨2, ![1, 128]⟩ : Shape).Idx → EReal) (n : Fin 50000) (q : Fin 128) :
    aggft A B W (ix2 n q) = (∑ j ∈ Finset.range 200, term A B n.val q j) * W (ix2 (0 : Fin 1) q) := by
  unfold aggft
  rw [Finset.sum_range]
  refine congrArg (· * W (ix2 (0 : Fin 1) q)) (Finset.sum_congr rfl fun j _ => ?_)
  unfold term
  rw [dif_pos j.isLt]

theorem agge_apply (A : IVec ⟨2, ![1, 640000]⟩ 32) (E : (⟨2, ![640000, 32]⟩ : Shape).Idx → EReal) (n : Fin 50000) (q : Fin 32) :
    agge A E (ix2 n q) = ∑ j ∈ Finset.range 200, term A E n.val q j := by
  unfold agge
  rw [Finset.sum_range]
  refine Finset.sum_congr rfl fun j _ => ?_
  unfold term
  rw [dif_pos j.isLt]

section Region1
variable (V : (c : Dev nD) → (b : Ref sig .tc) → Buf (Elt Ideal) ((c : Thread nD τ).loc b))

abbrev dArr (c : Dev nD) : Vec Ideal S1x640000 .i32 := V c main_v5
abbrev sArr (c : Dev nD) : Vec Ideal S640000x128 .bf16 := V c main_v7
abbrev eArr (c : Dev nD) : Vec Ideal S640000x32 .f32 := V c main_v6
abbrev wArr (c : Dev nD) : Vec Ideal S1x128 .f32 := V c main_arg2

abbrev dblk (c : Dev nD) (t : Fin cfg1.N) : Vec Ideal S1x3200 .i32 := iblk1 V c 0 t
abbrev sblk (c : Dev nD) (t : Fin cfg1.N) : Vec Ideal S3200x128 .bf16 := iblk1 V c 1 t
abbrev eblk (c : Dev nD) (t : Fin cfg1.N) : Vec Ideal S3200x32 .f32 := iblk1 V c 2 t
abbrev wblk (c : Dev nD) (t : Fin cfg1.N) : Vec Ideal S1x128 .f32 := iblk1 V c 3 t

abbrev acc0 (c : Dev nD) (n : ℕ) (h : n < cfg1.N) : Vec Ideal S2000x128 .f32 := (outsAt1 V c n h).2.2.1
abbrev acc1 (c : Dev nD) (n : ℕ) (h : n < cfg1.N) : Vec Ideal S2000x32 .f32 := (outsAt1 V c n h).2.2.2

theorem idx_facts : ∀ t : Fin cfg1.N,
    win1_0.index t 0 = 0 ∧ win1_0.index t 1 = t.val % 200 ∧ win1_1.index t 0 = t.val % 200 ∧ win1_1.index t 1 = 0
    ∧ win1_2.index t 0 = t.val % 200 ∧ win1_2.index t 1 = 0 ∧ win1_3.index t 0 = 0 ∧ win1_3.index t 1 = 0
    ∧ (grid1.coords t 0).val = t.val / 200 :=
  (by decide +kernel : ∀ t : Fin grid1.N, _)

def jOf (t : Fin cfg1.N) : Fin 200 := ⟨t.val % 200, Nat.mod_lt _ (by decide)⟩

theorem dblk_apply (c : Dev nD) (t : Fin cfg1.N) (k : Fin 3200) :
    dblk V c t (ix2 (0 : Fin 1) k) = dArr V c (ix2 (0 : Fin 1) (row200 (jOf t) k)) := by
  have hi := idx_facts t
  unfold dblk iblk1
  rw [View.read_apply]
  show V c main_v5 _ = V c main_v5 _
  congr 1
  funext a
  apply Fin.ext
  match a with
  | ⟨0, _⟩ => show win1_0.index t 0 * 1 + 1 * 0 = 0; rw [hi.1]
  | ⟨1, _⟩ => show win1_0.index t 1 * 3200 + 1 * k.val = 3200 * (t.val % 200) + k.val; rw [hi.2.1]; omega

theorem sblk_apply (c : Dev nD) (t : Fin cfg1.N) (k : Fin 3200) (q : Fin 128) :
    sblk V c t (ix2 k q) = sArr V c (ix2 (row200 (jOf t) k) q) := by
  have hi := idx_facts t
  unfold sblk iblk1
  rw [View.read_apply]
  show V c main_v7 _ = V c main_v7 _
  congr 1
  funext a
  apply Fin.ext
  match a with
  | ⟨0, _⟩ => show win1_1.index t 0 * 3200 + 1 * k.val = 3200 * (t.val % 200) + k.val; rw [hi.2.2.1]; omega
  | ⟨1, _⟩ => show win1_1.index t 1 * 128 + 1 * q.val = q.val; rw [hi.2.2.2.1]; omega

theorem eblk_apply (c : Dev nD) (t : Fin cfg1.N) (k : Fin 3200) (q : Fin 32) :
    eblk V c t (ix2 k q) = eArr V c (ix2 (row200 (jOf t) k) q) := by
  have hi := idx_facts t
  unfold eblk iblk1
  rw [View.read_apply]
  show V c main_v6 _ = V c main_v6 _
  congr 1
  funext a
  apply Fin.ext
  match a with
  | ⟨0, _⟩ => show win1_2.index t 0 * 3200 + 1 * k.val = 3200 * (t.val % 200) + k.val; rw [hi.2.2.2.2.1]; omega
  | ⟨1, _⟩ => show win1_2.index t 1 * 32 + 1 * q.val = q.val; rw [hi.2.2.2.2.2.1]; omega

theorem wblk_apply (c : Dev nD) (t : Fin cfg1.N) (q : Fin 128) :
    wblk V c t (ix2 (0 : Fin 1) q) = wArr V c (ix2 (0 : Fin 1) q) := by
  have hi := idx_facts t
  unfold wblk iblk1
  rw [View.read_apply]
  show V c main_arg2 _ = V c main_arg2 _
  congr 1
  funext a
  apply Fin.ext
  match a with
  | ⟨0, _⟩ => show win1_3.index t 0 * 1 + 1 * 0 = 0; rw [hi.2.2.2.2.2.2.1]
  | ⟨1, _⟩ => show win1_3.index t 1 * 128 + 1 * q.val = q.val; rw [hi.2.2.2.2.2.2.2.1]; omega

theorem point_term0 (c : Dev nD) (t : Fin cfg1.N) (p : Fin 2000) (q : Fin 128) :
    (∑ k : Fin 3200, oh (BitVec.ofNat 32 (2000 * (grid1.coords t 0).val + p.val)) (dblk V c t (ix2 (0 : Fin 1) k)) * sblk V c t (ix2 k q))
      = term (dArr V c) (sArr V c) (2000 * (t.val / 200) + p.val) q (t.val % 200) := by
  unfold term
  rw [dif_pos (Nat.mod_lt _ (by decide)), (idx_facts t).2.2.2.2.2.2.2.2]
  exact Finset.sum_congr rfl fun k _ => by rw [dblk_apply, sblk_apply]; rfl

theorem point_term1 (c : Dev nD) (t : Fin cfg1.N) (p : Fin 2000) (q : Fin 32) :
    (∑ k : Fin 3200, oh (BitVec.ofNat 32 (2000 * (grid1.coords t 0).val + p.val)) (dblk V c t (ix2 (0 : Fin 1) k)) * eblk V c t (ix2 k q))
      = term (dArr V c) (eArr V c) (2000 * (t.val / 200) + p.val) q (t.val % 200) := by
  unfold term
  rw [dif_pos (Nat.mod_lt _ (by decide)), (idx_facts t).2.2.2.2.2.2.2.2]
  exact Finset.sum_congr rfl fun k _ => by rw [dblk_apply, eblk_apply]; rfl

theorem ptA (c : Dev nD) (t : Fin cfg1.N) (h0 : t.val % 200 = 0) (h1 : ¬t.val % 200 = 199) :
    acc0 V c t.val t.isLt = k1_pay5 (grid1.coords t) (dblk V c t) (k1_pay2 (F := Ideal)) (sblk V c t)
    ∧ acc1 V c t.val t.isLt = k1_pay6 (grid1.coords t) (dblk V c t) (eblk V c t) (k1_pay3 (F := Ideal)) := by
  have e := (congrArg (fun x => x.2.2) (outsAt1_A V c t h0 h1)).trans
    (accA (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (dblk V c t) (sblk V c t) (eblk V c t) (wblk V c t) ((hcond1_0 t).mpr h0) (fun h => h1 ((hcond1_1 t).mp h)))
  exact ⟨congrArg Prod.fst e, congrArg Prod.snd e⟩

theorem ptB (c : Dev nD) (t : Fin cfg1.N) (h0 : ¬t.val % 200 = 0) (h1 : ¬t.val % 200 = 199) :
    acc0 V c t.val t.isLt = k1_pay5 (grid1.coords t) (dblk V c t) (acc0 V c (t.val - 1) (Nat.lt_of_le_of_lt (Nat.sub_le _ _) t.isLt)) (sblk V c t)
    ∧ acc1 V c t.val t.isLt = k1_pay6 (grid1.coords t) (dblk V c t) (eblk V c t) (acc1 V c (t.val - 1) (Nat.lt_of_le_of_lt (Nat.sub_le _ _) t.isLt)) := by
  have e := (congrArg (fun x => x.2.2) (outsAt1_B V c t h0 h1)).trans
    (accB (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (dblk V c t) (sblk V c t) (eblk V c t) (wblk V c t) (acc0 V c (t.val - 1) (Nat.lt_of_le_of_lt (Nat.sub_le _ _) t.isLt)) (acc1 V c (t.val - 1) (Nat.lt_of_le_of_lt (Nat.sub_le _ _) t.isLt)) (fun h => h0 ((hcond1_0 t).mp h)) (fun h => h1 ((hcond1_1 t).mp h)))
  exact ⟨congrArg Prod.fst e, congrArg Prod.snd e⟩

theorem ptC (c : Dev nD) (t : Fin cfg1.N) (h0 : ¬t.val % 200 = 0) (h1 : t.val % 200 = 199) :
    outsAt1 V c t.val t.isLt
      = (k1_pay1 (k1_pay5 (grid1.coords t) (dblk V c t) (acc0 V c (t.val - 1) (Nat.lt_of_le_of_lt (Nat.sub_le _ _) t.isLt)) (sblk V c t)) (wblk V c t),
         k1_pay6 (grid1.coords t) (dblk V c t) (eblk V c t) (acc1 V c (t.val - 1) (Nat.lt_of_le_of_lt (Nat.sub_le _ _) t.isLt)),
         k1_pay5 (grid1.coords t) (dblk V c t) (acc0 V c (t.val - 1) (Nat.lt_of_le_of_lt (Nat.sub_le _ _) t.isLt)) (sblk V c t),
         k1_pay6 (grid1.coords t) (dblk V c t) (eblk V c t) (acc1 V c (t.val - 1) (Nat.lt_of_le_of_lt (Nat.sub_le _ _) t.isLt))) :=
  (outsAt1_C V c t h0 h1).trans
    (outsC (F := Ideal) c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (dblk V c t) (sblk V c t) (eblk V c t) (wblk V c t) (acc0 V c (t.val - 1) (Nat.lt_of_le_of_lt (Nat.sub_le _ _) t.isLt)) (acc1 V c (t.val - 1) (Nat.lt_of_le_of_lt (Nat.sub_le _ _) t.isLt)) (fun h => h0 ((hcond1_0 t).mp h)) ((hcond1_1 t).mpr h1))

/-- After point n the accumulators hold the shares of the blocks of the current run up to n. -/
theorem acc_eq (c : Dev nD) : ∀ (n : ℕ) (h : n < cfg1.N),
    (∀ (p : Fin 2000) (q : Fin 128), acc0 V c n h (ix2 p q)
        = ∑ j ∈ Finset.range (n % 200 + 1), term (dArr V c) (sArr V c) (2000 * (n / 200) + p.val) q j)
    ∧ (∀ (p : Fin 2000) (q : Fin 32), acc1 V c n h (ix2 p q)
        = ∑ j ∈ Finset.range (n % 200 + 1), term (dArr V c) (eArr V c) (2000 * (n / 200) + p.val) q j)
  | 0, h => by
    have e := ptA V c ⟨0, h⟩ rfl (by show ¬(0 % 200 = 199); decide)
    refine ⟨fun p q => ?_, fun p q => ?_⟩
    · refine (congrFun e.1 (ix2 p q)).trans ?_
      refine (pay5_apply (grid1.coords ⟨0, h⟩) (dblk V c ⟨0, h⟩) (k1_pay2 (F := Ideal)) (sblk V c ⟨0, h⟩) p q).trans ?_
      rw [pay2_apply, zero_add, point_term0 V c ⟨0, h⟩ p q]
      simp
    · refine (congrFun e.2 (ix2 p q)).trans ?_
      refine (pay6_apply (grid1.coords ⟨0, h⟩) (dblk V c ⟨0, h⟩) (eblk V c ⟨0, h⟩) (k1_pay3 (F := Ideal)) p q).trans ?_
      rw [pay3_apply, zero_add, point_term1 V c ⟨0, h⟩ p q]
      simp
  | n + 1, h => by
    have ih := acc_eq c n (Nat.lt_of_succ_lt h)
    by_cases h0 : (n + 1) % 200 = 0
    · have h1 : ¬(n + 1) % 200 = 199 := by omega
      have e := ptA V c ⟨n + 1, h⟩ h0 h1
      refine ⟨fun p q => ?_, fun p q => ?_⟩
      · refine (congrFun e.1 (ix2 p q)).trans ?_
        refine (pay5_apply (grid1.coords ⟨n + 1, h⟩) (dblk V c ⟨n + 1, h⟩) (k1_pay2 (F := Ideal)) (sblk V c ⟨n + 1, h⟩) p q).trans ?_
        rw [pay2_apply, zero_add, point_term0 V c ⟨n + 1, h⟩ p q]
        show term _ _ (2000 * ((n + 1) / 200) + p.val) q ((n + 1) % 200) = _
        rw [h0, Finset.sum_range_one]
      · refine (congrFun e.2 (ix2 p q)).trans ?_
        refine (pay6_apply (grid1.coords ⟨n + 1, h⟩) (dblk V c ⟨n + 1, h⟩) (eblk V c ⟨n + 1, h⟩) (k1_pay3 (F := Ideal)) p q).trans ?_
        rw [pay3_apply, zero_add, point_term1 V c ⟨n + 1, h⟩ p q]
        show term _ _ (2000 * ((n + 1) / 200) + p.val) q ((n + 1) % 200) = _
        rw [h0, Finset.sum_range_one]
    · have hd : (n + 1) / 200 = n / 200 := by omega
      have hm : (n + 1) % 200 = n % 200 + 1 := by omega
      have e : acc0 V c (n + 1) h = k1_pay5 (grid1.coords ⟨n + 1, h⟩) (dblk V c ⟨n + 1, h⟩) (acc0 V c n (Nat.lt_of_succ_lt h)) (sblk V c ⟨n + 1, h⟩)
          ∧ acc1 V c (n + 1) h = k1_pay6 (grid1.coords ⟨n + 1, h⟩) (dblk V c ⟨n + 1, h⟩) (eblk V c ⟨n + 1, h⟩) (acc1 V c n (Nat.lt_of_succ_lt h)) := by
        by_cases h1 : (n + 1) % 200 = 199
        · have e := ptC V c ⟨n + 1, h⟩ h0 h1
          exact ⟨congrArg (fun x => x.2.2.1) e, congrArg (fun x => x.2.2.2) e⟩
        · exact ptB V c ⟨n + 1, h⟩ h0 h1
      refine ⟨fun p q => ?_, fun p q => ?_⟩
      · refine (congrFun e.1 (ix2 p q)).trans ?_
        refine (pay5_apply (grid1.coords ⟨n + 1, h⟩) (dblk V c ⟨n + 1, h⟩) (acc0 V c n (Nat.lt_of_succ_lt h)) (sblk V c ⟨n + 1, h⟩) p q).trans ?_
        rw [ih.1 p q, point_term0 V c ⟨n + 1, h⟩ p q]
        show _ + term _ _ (2000 * ((n + 1) / 200) + p.val) q ((n + 1) % 200) = _
        rw [hd, hm, Finset.sum_range_succ _ (n % 200 + 1)]
      · refine (congrFun e.2 (ix2 p q)).trans ?_
        refine (pay6_apply (grid1.coords ⟨n + 1, h⟩) (dblk V c ⟨n + 1, h⟩) (eblk V c ⟨n + 1, h⟩) (acc1 V c n (Nat.lt_of_succ_lt h)) p q).trans ?_
        rw [ih.2 p q, point_term1 V c ⟨n + 1, h⟩ p q]
        show _ + term _ _ (2000 * ((n + 1) / 200) + p.val) q ((n + 1) % 200) = _
        rw [hd, hm, Finset.sum_range_succ _ (n % 200 + 1)]

theorem acc0_last (c : Dev nD) (t : Fin cfg1.N) (ht : t.val % 200 = 199) (p : Fin 2000) (q : Fin 128) :
    acc0 V c t.val t.isLt (ix2 p q) = ∑ j ∈ Finset.range 200, term (dArr V c) (sArr V c) (nodeOf t p).val q j := by
  rw [(acc_eq V c t.val t.isLt).1 p q, ht]
  rfl

theorem acc1_last (c : Dev nD) (t : Fin cfg1.N) (ht : t.val % 200 = 199) (p : Fin 2000) (q : Fin 32) :
    acc1 V c t.val t.isLt (ix2 p q) = ∑ j ∈ Finset.range 200, term (dArr V c) (eArr V c) (nodeOf t p).val q j := by
  rw [(acc_eq V c t.val t.isLt).2 p q, ht]
  rfl

theorem hpt4 (c : Dev nD) (t : Fin cfg1.N) (ht : t.val % 200 = 199) (p : Fin 2000) (q : Fin 128) :
    ((dat1 V c).after 4 t : Vec Ideal S2000x128 .f32) (ix2 p q)
      = aggft (dArr V c) (sArr V c) (wArr V c) (ix2 (nodeOf t p) q) := by
  have e := ptC V c t (by omega) ht
  have e5 : k1_pay5 (F := Ideal) (grid1.coords t) (dblk V c t) (acc0 V c (t.val - 1) (Nat.lt_of_le_of_lt (Nat.sub_le _ _) t.isLt)) (sblk V c t) (ix2 p q)
      = acc0 V c t.val t.isLt (ix2 p q) := (congrFun (congrArg (fun x => x.2.2.1) e) (ix2 p q)).symm
  show ((dat1 V c).after 4 t) (ix2 p q) = _
  rw [after1_4]
  refine (congrFun (congrArg (fun x => x.1) e) (ix2 p q)).trans ?_
  refine (pay1_apply (k1_pay5 (F := Ideal) (grid1.coords t) (dblk V c t) (acc0 V c (t.val - 1) (Nat.lt_of_le_of_lt (Nat.sub_le _ _) t.isLt)) (sblk V c t)) (wblk V c t) p q).trans ?_
  rw [e5, acc0_last V c t ht p q, wblk_apply, aggft_apply]

theorem hpt5 (c : Dev nD) (t : Fin cfg1.N) (ht : t.val % 200 = 199) (p : Fin 2000) (q : Fin 32) :
    ((dat1 V c).after 5 t : Vec Ideal S2000x32 .f32) (ix2 p q)
      = agge (dArr V c) (eArr V c) (ix2 (nodeOf t p) q) := by
  have e := ptC V c t (by omega) ht
  show ((dat1 V c).after 5 t) (ix2 p q) = _
  rw [after1_5]
  refine (congrFun ((congrArg (fun x => x.2.1) e).trans (congrArg (fun x => x.2.2.2) e).symm) (ix2 p q)).trans ?_
  show acc1 V c t.val t.isLt (ix2 p q) = _
  rw [acc1_last V c t ht p q, agge_apply]

theorem aggft_final (c : Dev nD) :
    (dat1 (F := Ideal) V c).arrAt 4 cfg1.N = aggft (V c main_v5) (V c main_v7) (V c main_arg2) :=
  arr4_of_points (dat1 V c) (aggft (dArr V c) (sArr V c) (wArr V c)) (hpt4 V c)

theorem agge_final (c : Dev nD) :
    (dat1 (F := Ideal) V c).arrAt 5 cfg1.N = agge (V c main_v5) (V c main_v6) :=
  arr5_of_points (dat1 V c) (agge (dArr V c) (eArr V c)) (hpt5 V c)

end Region1

end Cert.KernelIdeal.Val1

end
-- ==== Proof.KI.Host.lean ====
import proofs.«411513_j21534966022316_1_alg».proof.Proof.Gen.KernelIdeal.Regions
import proofs.«411513_j21534966022316_1_alg».proof.Proof.Spec
import Idealize.ShloMosaic.Lib.StableHlo.Run
import Idealize.ShloMosaic.Lib.KernelVsHost
import Idealize.ShloMosaic.Lib.ValueIdx
import Idealize.ShloMosaic.Lib.Pipeline.Value

noncomputable section

namespace Cert.KernelIdeal.HostVal

open Idealize.ShloMosaic Idealize.ShloMosaic.TcCoe Idealize.ShloMosaic.ValueIdx
open Idealize.ShloMosaic.StableHlo
open Cert.KernelIdeal Cert.KernelIdeal.Gen

section Pads
variable {α : Type}

theorem pad_rows_apply {n n' k p : Nat} (x : (⟨2, ![n, k]⟩ : Shape).Idx → α) {u : Shape} (v : u.Idx → α)
    (hp : (⟨2, ![n, k]⟩ : Shape).Pads (![0, 0] : Fin 2 → Nat) ![p, 0] ![0, 0] ⟨2, ![n', k]⟩) (hu : 0 < u.numel)
    (y : (⟨2, ![n', k]⟩ : Shape).Idx) :
    pad ⟨2, ![n', k]⟩ ![0, 0] ![p, 0] ![0, 0] x v hp hu y
      = if h : (y 0).val < n then x (ix2 (⟨(y 0).val, h⟩ : Fin n) (⟨(y 1).val, (y 1).isLt⟩ : Fin k))
        else v (Shape.Idx.first hu) := by
  by_cases h : (y 0).val < n
  · rw [dif_pos h]
    exact pad_apply_of_inside _ _ _ x v hp hu y (ix2 (⟨(y 0).val, h⟩ : Fin n) (⟨(y 1).val, (y 1).isLt⟩ : Fin k)) (by
      intro a
      match a with
      | ⟨0, _⟩ => show (y 0).val = 0 + (y 0).val * (0 + 1); omega
      | ⟨1, _⟩ => show (y 1).val = 0 + (y 1).val * (0 + 1); omega)
  · rw [dif_neg h]
    exact pad_apply_of_not_inside _ _ _ x v hp hu y (0 : Fin 2) (by
      intro hin
      have e : ((y 0).val - 0) / (0 + 1) < n := hin.2.2
      rw [Nat.sub_zero, Nat.div_one] at e
      exact h e)

theorem pad_cols_apply {n n' k p : Nat} (x : (⟨2, ![k, n]⟩ : Shape).Idx → α) {u : Shape} (v : u.Idx → α)
    (hp : (⟨2, ![k, n]⟩ : Shape).Pads (![0, 0] : Fin 2 → Nat) ![0, p] ![0, 0] ⟨2, ![k, n']⟩) (hu : 0 < u.numel)
    (y : (⟨2, ![k, n']⟩ : Shape).Idx) :
    pad ⟨2, ![k, n']⟩ ![0, 0] ![0, p] ![0, 0] x v hp hu y
      = if h : (y 1).val < n then x (ix2 (⟨(y 0).val, (y 0).isLt⟩ : Fin k) (⟨(y 1).val, h⟩ : Fin n))
        else v (Shape.Idx.first hu) := by
  by_cases h : (y 1).val < n
  · rw [dif_pos h]
    exact pad_apply_of_inside _ _ _ x v hp hu y (ix2 (⟨(y 0).val, (y 0).isLt⟩ : Fin k) (⟨(y 1).val, h⟩ : Fin n)) (by
      intro a
      match a with
      | ⟨0, _⟩ => show (y 0).val = 0 + (y 0).val * (0 + 1); omega
      | ⟨1, _⟩ => show (y 1).val = 0 + (y 1).val * (0 + 1); omega)
  · rw [dif_neg h]
    exact pad_apply_of_not_inside _ _ _ x v hp hu y (1 : Fin 2) (by
      intro hin
      have e : ((y 1).val - 0) / (0 + 1) < n := hin.2.2
      rw [Nat.sub_zero, Nat.div_one] at e
      exact h e)

end Pads

variable (m : (ℓ : Loc nD τ sig) → Buf (Elt Ideal) ℓ) (c : Dev nD)

theorem V8_tbl_term : (Gen.V8 m c (Proc.devRef .tc main_v1) : S51200x128.Idx → EReal)
    = truncf .bf16 (pad S51200x128 ![0, 0] ![1200, 0] ![0, 0]
        (m ((c : Thread nD τ).loc main_arg0) : S50000x128.Idx → EReal)
        (sitofp (F := Ideal) .f32 (constantI S_ 32 0#32)) Facts₀.pads_S50000x128_S51200x128_012000_000 Facts₀.h_S_)
        Facts₀.bitsLt_bf16_f32 :=
  (V8_of m c main_v1 (by decide)).trans <| (V7_of m c main_v1 (by decide)).trans <|
  (V6_of m c main_v1 (by decide)).trans <| (V5_of m c main_v1 (by decide)).trans <|
  (V4_of m c main_v1 (by decide)).trans <| by
    dsimp only [Gen.V3, Gen.hostOps0_2]
    after_results
    rfl

theorem V8_tbl : (Gen.V8 m c (Proc.devRef .tc main_v1) : S51200x128.Idx → EReal)
    = Cert.Spec.tblOf (m ((c : Thread nD τ).loc main_arg0)) := by
  rw [V8_tbl_term]
  funext y
  rw [truncf_apply, pad_rows_apply]
  unfold Cert.Spec.tblOf
  by_cases h : (y 0).val < 50000
  · rw [dif_pos h, dif_pos h]
  · rw [dif_neg h, dif_neg h]
    exact sitofp_zero

theorem V8_srcp_term : (Gen.V8 m c (Proc.devRef .tc main_v3) : IVec S640000x1 32)
    = pad S640000x1 ![0, 0] ![40000, 0] ![0, 0]
        (shapeCast S600000x1 (m ((c : Thread nD τ).loc main_arg3) : IVec S600000 32) Facts₀.shapeCasts_S600000_S600000x1)
        (constantI S_ 32 4294967295#32) Facts₀.pads_S600000x1_S640000x1_0400000_000 Facts₀.h_S_ :=
  (V8_of m c main_v3 (by decide)).trans <| (V7_of m c main_v3 (by decide)).trans <|
  (V6_of m c main_v3 (by decide)).trans <| (V5_of m c main_v3 (by decide)).trans <| by
    dsimp only [Gen.V4, Gen.hostOps0_3]
    after_results
    rfl

theorem V8_srcp : (Gen.V8 m c (Proc.devRef .tc main_v3) : IVec S640000x1 32)
    = Cert.Spec.srcpOf (m ((c : Thread nD τ).loc main_arg3)) := by
  rw [V8_srcp_term]
  funext y
  rw [pad_rows_apply]
  unfold Cert.Spec.srcpOf
  by_cases h : (y 0).val < 600000
  · rw [dif_pos h, dif_pos h]
    have h1 : (y 1).val < 1 := (y 1).isLt
    exact shapeCast_apply _ _ _ (ix1 (⟨(y 0).val, h⟩ : Fin 600000)) (by
      rw [Shape.rowMajor_val_two, Shape.rowMajor_val_one]
      show (y 0).val = (y 0).val * 1 + (y 1).val
      omega)
  · rw [dif_neg h, dif_neg h]
    rfl

theorem V8_dstp_term : (Gen.V8 m c (Proc.devRef .tc main_v5) : IVec S1x640000 32)
    = pad S1x640000 ![0, 0] ![0, 40000] ![0, 0]
        (shapeCast S1x600000 (m ((c : Thread nD τ).loc main_arg4) : IVec S600000 32) Facts₀.shapeCasts_S600000_S1x600000)
        (constantI S_ 32 4294967295#32) Facts₀.pads_S1x600000_S1x640000_000_0400000 Facts₀.h_S_ :=
  (V8_of m c main_v5 (by decide)).trans <| (V7_of m c main_v5 (by decide)).trans <| by
    dsimp only [Gen.V6, Gen.hostOps0_5]
    after_results
    rfl

theorem V8_dstp : (Gen.V8 m c (Proc.devRef .tc main_v5) : IVec S1x640000 32)
    = Cert.Spec.dstpOf (m ((c : Thread nD τ).loc main_arg4)) := by
  rw [V8_dstp_term]
  funext y
  rw [pad_cols_apply]
  unfold Cert.Spec.dstpOf
  by_cases h : (y 1).val < 600000
  · rw [dif_pos h, dif_pos h]
    have h0 : (y 0).val < 1 := (y 0).isLt
    exact shapeCast_apply _ _ _ (ix1 (⟨(y 1).val, h⟩ : Fin 600000)) (by
      rw [Shape.rowMajor_val_two, Shape.rowMajor_val_one]
      show (y 1).val = (y 0).val * 600000 + (y 1).val
      omega)
  · rw [dif_neg h, dif_neg h]
    rfl

theorem V8_ep_term : (Gen.V8 m c (Proc.devRef .tc main_v6) : S640000x32.Idx → EReal)
    = pad S640000x32 ![0, 0] ![40000, 0] ![0, 0]
        (m ((c : Thread nD τ).loc main_arg1) : S600000x32.Idx → EReal)
        (sitofp (F := Ideal) .f32 (constantI S_ 32 0#32)) Facts₀.pads_S600000x32_S640000x32_0400000_000 Facts₀.h_S_ := by
  dsimp only [Gen.V8, Gen.hostOps0_7]
  after_results
  rfl

theorem V8_ep : (Gen.V8 m c (Proc.devRef .tc main_v6) : S640000x32.Idx → EReal)
    = Cert.Spec.epOf (m ((c : Thread nD τ).loc main_arg1)) := by
  rw [V8_ep_term]
  funext y
  rw [pad_rows_apply]
  unfold Cert.Spec.epOf
  by_cases h : (y 0).val < 600000
  · rw [dif_pos h, dif_pos h]
  · rw [dif_neg h, dif_neg h]
    exact sitofp_zero (φ := .f32)

end Cert.KernelIdeal.HostVal

end
-- ==== Proof.Alg.lean ====
import Mathlib.Algebra.BigOperators.Fin
import Mathlib.Data.Fintype.BigOperators
import Mathlib.Logic.Equiv.Fin.Basic
import Mathlib.Data.EReal.Basic
import proofs.«411513_j21534966022316_1_alg».proof.Proof.Spec

noncomputable section

open scoped BigOperators

namespace Cert.Spec

open Idealize.ShloMosaic Idealize.ShloMosaic.ValueIdx

theorem block_lt {a b : ℕ} (j : Fin a) (k : Fin b) : b * j.val + k.val < a * b := by
  have hj : j.val + 1 ≤ a := j.isLt
  calc b * j.val + k.val < b * j.val + b := Nat.add_lt_add_left k.isLt _
    _ = (j.val + 1) * b := by rw [Nat.succ_mul, Nat.mul_comm]
    _ ≤ a * b := Nat.mul_le_mul_right _ hj

theorem sum_blocks {M : Type*} [AddCommMonoid M] {a b n : ℕ} (h : a * b = n) (f : Fin n → M) :
    ∑ j : Fin a, ∑ k : Fin b, f ⟨b * j.val + k.val, h ▸ block_lt j k⟩ = ∑ e : Fin n, f e := by
  subst h
  rw [← Fintype.sum_prod_type']
  refine Fintype.sum_equiv finProdFinEquiv _ _ fun x => ?_
  congr 1
  apply Fin.ext
  show b * x.1.val + x.2.val = x.2.val + b * x.1.val
  exact Nat.add_comm _ _

theorem sum_castLE_of_zero {M : Type*} [AddCommMonoid M] {m n : ℕ} (h : m ≤ n) (g : Fin n → M)
    (hz : ∀ e : Fin n, m ≤ e.val → g e = 0) : ∑ e : Fin n, g e = ∑ e : Fin m, g (Fin.castLE h e) := by
  obtain ⟨d, rfl⟩ := Nat.exists_eq_add_of_le h
  rw [Fin.sum_univ_add]
  have h0 : ∑ i : Fin d, g (Fin.natAdd m i) = 0 :=
    Finset.sum_eq_zero fun i _ => hz _ (Nat.le_add_right m i.val)
  rw [h0, add_zero]
  rfl

theorem oh_mul (a b : BitVec 32) (x : EReal) : oh a b * x = if a = b then x else 0 := by
  unfold oh
  split
  · exact one_mul x
  · exact zero_mul x

theorem pad_ne_node {n : ℕ} (hn : n < 50000) : BitVec.ofNat 32 n ≠ 4294967295#32 := by
  intro h
  have h' := congrArg BitVec.toNat h
  rw [BitVec.toNat_ofNat, BitVec.toNat_ofNat] at h'
  omega

theorem agge_entry (ef : (⟨2, ![600000, 32]⟩ : Shape).Idx → EReal) (dst : IVec ⟨1, ![600000]⟩ 32)
    (n : Fin 50000) (q : Fin 32) :
    (∑ j : Fin 200, ∑ k : Fin 3200,
      oh (BitVec.ofNat 32 n.val) (dstpOf dst (ix2 (0 : Fin 1) (row200 j k))) * epOf ef (ix2 (row200 j k) q))
    = ∑ e : Fin 600000, if dst (ix1 e) = BitVec.ofNat 32 n.val then ef (ix2 e q) else 0 := by
  have hb := sum_blocks (a := 200) (b := 3200) (n := 640000) (by norm_num)
    (fun e : Fin 640000 => oh (BitVec.ofNat 32 n.val) (dstpOf dst (ix2 (0 : Fin 1) e)) * epOf ef (ix2 e q))
  refine hb.trans ?_
  rw [sum_castLE_of_zero (m := 600000) (n := 640000) (by norm_num)]
  · refine Finset.sum_congr rfl fun e _ => ?_
    have he : (Fin.castLE (by norm_num : 600000 ≤ 640000) e).val < 600000 := e.isLt
    rw [oh_mul]
    have h1 : dstpOf dst (ix2 (0 : Fin 1) (Fin.castLE (by norm_num : 600000 ≤ 640000) e)) = dst (ix1 e) := by
      unfold dstpOf
      exact dif_pos he
    have h2 : epOf ef (ix2 (Fin.castLE (by norm_num : 600000 ≤ 640000) e) q) = ef (ix2 e q) := by
      unfold epOf
      exact dif_pos he
    rw [h1, h2]
    by_cases hd : dst (ix1 e) = BitVec.ofNat 32 n.val
    · rw [if_pos hd, if_pos hd.symm]
    · rw [if_neg hd, if_neg fun h => hd h.symm]
  · intro e he
    have h1 : dstpOf dst (ix2 (0 : Fin 1) e) = 4294967295#32 := by
      unfold dstpOf
      exact dif_neg (Nat.not_lt.mpr he)
    rw [oh_mul, h1, if_neg (pad_ne_node n.isLt)]

theorem agge_eq_refe (ef : (⟨2, ![600000, 32]⟩ : Shape).Idx → EReal) (dst : IVec ⟨1, ![600000]⟩ 32) :
    agge (dstpOf dst) (epOf ef) = refe ef dst := by
  funext y
  exact agge_entry ef dst (y 0) ⟨(y 1).val, (y 1).isLt⟩

theorem coe_sum_real {ι : Type*} (s : Finset ι) (r : ι → ℝ) :
    ((∑ i ∈ s, r i : ℝ) : EReal) = ∑ i ∈ s, (r i : EReal) := by
  classical
  refine Finset.induction_on s ?_ ?_
  · rw [Finset.sum_empty, Finset.sum_empty, EReal.coe_zero]
  · intro a s ha ih
    rw [Finset.sum_insert ha, Finset.sum_insert ha, EReal.coe_add, ih]

theorem sum_mul_of_real {ι : Type*} (s : Finset ι) (a : ι → EReal) (w : EReal)
    (ha : ∀ i, ∃ r : ℝ, a i = (r : EReal)) (hw : ∃ r : ℝ, w = (r : EReal)) :
    (∑ i ∈ s, a i) * w = ∑ i ∈ s, a i * w := by
  choose r hr using ha
  obtain ⟨v, rfl⟩ := hw
  have h1 : ∀ i, a i * (v : EReal) = ((r i * v : ℝ) : EReal) := fun i => by rw [hr, EReal.coe_mul]
  rw [Finset.sum_congr rfl fun i _ => hr i, Finset.sum_congr rfl fun i _ => h1 i, ← coe_sum_real,
    ← coe_sum_real, ← EReal.coe_mul, Finset.sum_mul]

theorem gather_entry (ge : (⟨2, ![50000, 128]⟩ : Shape).Idx → EReal) (s : BitVec 32) (hs : s.toNat < 50000)
    (q : Fin 128) :
    (∑ j : Fin 16, ∑ k : Fin 3200,
      oh s (BitVec.ofNat 32 (3200 * j.val + k.val)) * tblOf ge (ix2 (row16 j k) q))
    = ge (ix2 (srcRow s) q) := by
  have hb := sum_blocks (a := 16) (b := 3200) (n := 51200) (by norm_num)
    (fun r : Fin 51200 => oh s (BitVec.ofNat 32 r.val) * tblOf ge (ix2 r q))
  refine hb.trans ?_
  have hlt : s.toNat < 51200 := Nat.lt_trans hs (by norm_num)
  rw [Finset.sum_eq_single (⟨s.toNat, hlt⟩ : Fin 51200)]
  ·
    have h1 : s = BitVec.ofNat 32 s.toNat := by
      apply BitVec.eq_of_toNat_eq
      rw [BitVec.toNat_ofNat, Nat.mod_eq_of_lt s.isLt]
    have h2 : tblOf ge (ix2 (⟨s.toNat, hlt⟩ : Fin 51200) q) = ge (ix2 (⟨s.toNat, hs⟩ : Fin 50000) q) := by
      unfold tblOf
      exact dif_pos hs
    have h3 : srcRow s = ⟨s.toNat, hs⟩ := by
      unfold srcRow
      exact dif_pos hs
    rw [oh_mul, if_pos h1, h2, h3]
  ·
    intro r _ hr
    rw [oh_mul, if_neg]
    intro h
    apply hr
    apply Fin.ext
    have h' := congrArg BitVec.toNat h
    rw [BitVec.toNat_ofNat] at h'
    have hr' := r.isLt
    show r.val = s.toNat
    omega
  · intro h
    exact absurd (Finset.mem_univ _) h

theorem aggft_entry (ge : (⟨2, ![50000, 128]⟩ : Shape).Idx → EReal) (w : (⟨2, ![1, 128]⟩ : Shape).Idx → EReal)
    (src dst : IVec ⟨1, ![600000]⟩ 32) (hge : AllReal ge) (hw : AllReal w) (hs : SrcOk src)
    (n : Fin 50000) (q : Fin 128) :
    (∑ j : Fin 200, ∑ k : Fin 3200,
      oh (BitVec.ofNat 32 n.val) (dstpOf dst (ix2 (0 : Fin 1) (row200 j k)))
        * srcft (srcpOf src) (tblOf ge) (ix2 (row200 j k) q)) * w (ix2 (0 : Fin 1) q)
    = ∑ e : Fin 600000, if dst (ix1 e) = BitVec.ofNat 32 n.val
        then ge (ix2 (srcRow (src (ix1 e))) q) * w (ix2 (0 : Fin 1) q) else 0 := by

  have hsum : (∑ j : Fin 200, ∑ k : Fin 3200,
        oh (BitVec.ofNat 32 n.val) (dstpOf dst (ix2 (0 : Fin 1) (row200 j k)))
          * srcft (srcpOf src) (tblOf ge) (ix2 (row200 j k) q))
      = ∑ e : Fin 600000, oh (BitVec.ofNat 32 n.val) (dst (ix1 e)) * ge (ix2 (srcRow (src (ix1 e))) q) := by
    have hb := sum_blocks (a := 200) (b := 3200) (n := 640000) (by norm_num)
      (fun e : Fin 640000 => oh (BitVec.ofNat 32 n.val) (dstpOf dst (ix2 (0 : Fin 1) e))
        * srcft (srcpOf src) (tblOf ge) (ix2 e q))
    refine hb.trans ?_
    rw [sum_castLE_of_zero (m := 600000) (n := 640000) (by norm_num)]
    · refine Finset.sum_congr rfl fun e _ => ?_
      have he : (Fin.castLE (by norm_num : 600000 ≤ 640000) e).val < 600000 := e.isLt
      have h1 : dstpOf dst (ix2 (0 : Fin 1) (Fin.castLE (by norm_num : 600000 ≤ 640000) e)) = dst (ix1 e) := by
        unfold dstpOf
        exact dif_pos he
      have h2 : srcpOf src (ix2 (Fin.castLE (by norm_num : 600000 ≤ 640000) e) (0 : Fin 1)) = src (ix1 e) := by
        unfold srcpOf
        exact dif_pos he
      have h3 : srcft (srcpOf src) (tblOf ge) (ix2 (Fin.castLE (by norm_num : 600000 ≤ 640000) e) q)
          = ge (ix2 (srcRow (src (ix1 e))) q) := by
        show (∑ j : Fin 16, ∑ k : Fin 3200,
          oh (srcpOf src (ix2 (Fin.castLE (by norm_num : 600000 ≤ 640000) e) (0 : Fin 1)))
            (BitVec.ofNat 32 (3200 * j.val + k.val)) * tblOf ge (ix2 (row16 j k) q)) = _
        rw [h2]
        exact gather_entry ge (src (ix1 e)) (hs e) q
      rw [h1, h3]
    · intro e he
      have h1 : dstpOf dst (ix2 (0 : Fin 1) e) = 4294967295#32 := by
        unfold dstpOf
        exact dif_neg (Nat.not_lt.mpr he)
      rw [oh_mul, h1, if_neg (pad_ne_node n.isLt)]
  rw [hsum, sum_mul_of_real]
  · refine Finset.sum_congr rfl fun e _ => ?_
    rw [mul_assoc, oh_mul]
    by_cases hd : dst (ix1 e) = BitVec.ofNat 32 n.val
    · rw [if_pos hd, if_pos hd.symm]
    · rw [if_neg hd, if_neg fun h => hd h.symm]
  ·
    intro e
    rw [oh_mul]
    by_cases hd : BitVec.ofNat 32 n.val = dst (ix1 e)
    · rw [if_pos hd]
      exact hge _
    · rw [if_neg hd]
      exact ⟨0, EReal.coe_zero.symm⟩
  · exact hw _

theorem aggft_eq_refft (ge : (⟨2, ![50000, 128]⟩ : Shape).Idx → EReal) (w : (⟨2, ![1, 128]⟩ : Shape).Idx → EReal)
    (src dst : IVec ⟨1, ![600000]⟩ 32) (hge : AllReal ge) (hw : AllReal w) (hs : SrcOk src) :
    aggft (dstpOf dst) (srcft (srcpOf src) (tblOf ge)) w = refft ge w src dst := by
  funext y
  exact aggft_entry ge w src dst hge hw hs (y 0) ⟨(y 1).val, (y 1).isLt⟩

end Cert.Spec

end
-- ==== Proof.Bridge.lean ====
import proofs.«411513_j21534966022316_1_alg».proof.Proof.KI.Run
import proofs.«411513_j21534966022316_1_alg».proof.Proof.KI.R0Value
import proofs.«411513_j21534966022316_1_alg».proof.Proof.KI.R1Value
import proofs.«411513_j21534966022316_1_alg».proof.Proof.KI.Host
import proofs.«411513_j21534966022316_1_alg».proof.Proof.Spec
import proofs.«411513_j21534966022316_1_alg».proof.Proof.Alg

noncomputable section

namespace Cert.Proof.Bridge

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ) (c : Dev nD)

/-- The scatter is entered with the gather's closed form over the padded source indices and the padded table. -/
theorem gathered :
    (E1 m c main_v7 : S640000x128.Idx → EReal)
      = Cert.Spec.srcft (Cert.Spec.srcpOf (m ((c : Thread nD τ).loc main_arg3))) (Cert.Spec.tblOf (m ((c : Thread nD τ).loc main_arg0))) := by
  show W9 m c main_v7 = _
  rw [W9_main_v7, Cert.KernelIdeal.Val0.srcft_final (E0 m) c]
  show Cert.Spec.srcft (V8 m c (Proc.devRef .tc main_v3)) (V8 m c (Proc.devRef .tc main_v1)) = _
  rw [Cert.KernelIdeal.HostVal.V8_srcp, Cert.KernelIdeal.HostVal.V8_tbl]

theorem dst_row : (E1 m c main_v5 : IVec S1x640000 32) = Cert.Spec.dstpOf (m ((c : Thread nD τ).loc main_arg4)) := by
  show W9 m c main_v5 = _
  rw [W9_of_ne m c main_v5 (by decide)]
  exact Cert.KernelIdeal.HostVal.V8_dstp m c

theorem edge_rows : (E1 m c main_v6 : S640000x32.Idx → EReal) = Cert.Spec.epOf (m ((c : Thread nD τ).loc main_arg1)) := by
  show W9 m c main_v6 = _
  rw [W9_of_ne m c main_v6 (by decide)]
  exact Cert.KernelIdeal.HostVal.V8_ep m c

/-- With real entries and every source index a row of the table, the scattered sum is the reference's segment sum. -/
theorem sum_ft (hge : Cert.Spec.AllReal (m ((c : Thread nD τ).loc main_arg0))) (hw : Cert.Spec.AllReal (m ((c : Thread nD τ).loc main_arg2)))
    (hs : Cert.Spec.SrcOk (m ((c : Thread nD τ).loc main_arg3))) :
    ((dat1 (E1 m) c).arrAt 4 cfg1.N : S50000x128.Idx → EReal)
      = Cert.Spec.refft (m ((c : Thread nD τ).loc main_arg0)) (m ((c : Thread nD τ).loc main_arg2))
          (m ((c : Thread nD τ).loc main_arg3)) (m ((c : Thread nD τ).loc main_arg4)) := by
  rw [Cert.KernelIdeal.Val1.aggft_final (E1 m) c, dst_row m c, gathered m c]
  rw [show (E1 m c main_arg2 : S1x128.Idx → EReal) = m ((c : Thread nD τ).loc main_arg2) from W9_main_arg2 m c]
  exact Cert.Spec.aggft_eq_refft _ _ _ _ hge hw hs

theorem sum_e :
    ((dat1 (E1 m) c).arrAt 5 cfg1.N : S50000x32.Idx → EReal)
      = Cert.Spec.refe (m ((c : Thread nD τ).loc main_arg1)) (m ((c : Thread nD τ).loc main_arg4)) := by
  rw [Cert.KernelIdeal.Val1.agge_final (E1 m) c, dst_row m c, edge_rows m c]
  exact Cert.Spec.agge_eq_refe _ _

end Cert.Proof.Bridge

end
-- ==== Proof.Ref.lean ====
import proofs.«411513_j21534966022316_1_alg».proof.Proof.Gen.ReferenceIdeal.Read
import proofs.«411513_j21534966022316_1_alg».proof.Proof.Spec
import Idealize.ShloMosaic.PureOps.Ideal
import Idealize.ShloMosaic.PureOps.Ideal.Laws
import Idealize.ShloMosaic.Lib.ValueIdx
import Idealize.ShloMosaic.Lib.StableHlo.Predicate

noncomputable section

open scoped BigOperators

namespace Cert.RefValue

open Idealize.ShloMosaic Idealize.ShloMosaic.ValueIdx Idealize.ShloMosaic.StableHlo.Predicate

theorem eq_ix2_val {n0 n1 : Nat} (j : (⟨2, ![n0, n1]⟩ : Shape).Idx) :
    j = ix2 (⟨(j 0).val, idx2_lt0 j⟩ : Fin n0) (⟨(j 1).val, idx2_lt1 j⟩ : Fin n1) := by
  funext a; match a with | ⟨0, _⟩ => rfl | ⟨1, _⟩ => rfl

section Seg
variable {N E C : Nat}

abbrev segDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable (wf : ScatterDims.WF ⟨2, ![N, C]⟩ ⟨2, ![E, 1]⟩ ⟨2, ![E, C]⟩ [1] [0] [0] 1)

theorem seg_start0 {w : Nat} (j : (⟨2, ![E, C]⟩ : Shape).Idx) (idx : IVec ⟨2, ![E, 1]⟩ w) :
    (segDims N E C wf).start j idx 0 = (idx (ix2 (j 0) (0 : Fin 1))).toInt := by
  unfold ScatterDims.start
  rw [dif_pos (show (0 : Fin 2) ∈ (segDims N E C wf).scatterDimsToOperandDims from List.mem_singleton.mpr rfl)]
  have hsi : (segDims N E C wf).siIdx j ⟨List.idxOf (0 : Fin 2) (segDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem seg_start1 {w : Nat} (j : (⟨2, ![E, C]⟩ : Shape).Idx) (idx : IVec ⟨2, ![E, 1]⟩ w) :
    (segDims N E C wf).start j idx 1 = 0 := by
  unfold ScatterDims.start
  rw [dif_neg (show ¬ (1 : Fin 2) ∈ (segDims N E C wf).scatterDimsToOperandDims from fun h => absurd (List.mem_singleton.mp h) (show ¬ ((1 : Fin 2) = 0) from by decide))]

theorem seg_window0 (j : (⟨2, ![E, C]⟩ : Shape).Idx) : (segDims N E C wf).window j 0 = 0 := by
  unfold ScatterDims.window
  rw [dif_neg (show ¬ (0 : Fin 2) ∈ (segDims N E C wf).sKept from by simp [ScatterDims.sKept, Shape.kept, List.mem_filter, List.mem_finRange])]

theorem seg_window1 (j : (⟨2, ![E, C]⟩ : Shape).Idx) : (segDims N E C wf).window j 1 = (j 1).val := by
  unfold ScatterDims.window
  rw [dif_pos (show (1 : Fin 2) ∈ (segDims N E C wf).sKept from by simp [ScatterDims.sKept, Shape.kept, List.mem_filter, List.mem_finRange])]
  rfl

theorem seg_resultIdx_iff (hN : N < 2 ^ 31) (idx : IVec ⟨2, ![E, 1]⟩ 32) (e : Fin E) (q' q : Fin C) (n : Fin N) :
    (segDims N E C wf).resultIdx? (ix2 e q') idx = some (ix2 n q)
      ↔ idx (ix2 e (0 : Fin 1)) = BitVec.ofNat 32 n.val ∧ q' = q := by
  have h0 : (segDims N E C wf).start (ix2 e q') idx 0 + ((segDims N E C wf).window (ix2 e q') 0 : Int)
      = (idx (ix2 e (0 : Fin 1))).toInt := by
    rw [seg_start0, seg_window0]; simp only [Nat.cast_zero, add_zero]; rfl
  have h1 : (segDims N E C wf).start (ix2 e q') idx 1 + ((segDims N E C wf).window (ix2 e q') 1 : Int) = (q'.val : Int) := by
    rw [seg_start1, seg_window1, zero_add]; rfl
  have hs0 : ((⟨2, ![N, C]⟩ : Shape).size 0 : Int) = (N : Int) := rfl
  have hs1 : ((⟨2, ![N, C]⟩ : Shape).size 1 : Int) = (C : Int) := rfl
  have hn : n.val < 2 ^ 31 := lt_trans n.isLt hN
  unfold ScatterDims.resultIdx?
  split
  · rename_i h
    rw [Option.some.injEq]
    constructor
    · intro hf
      have v0 : ((segDims N E C wf).start (ix2 e q') idx 0 + ((segDims N E C wf).window (ix2 e q') 0 : Int)).toNat = n.val :=
        congrArg Fin.val (congrFun hf 0)
      have v1 : ((segDims N E C wf).start (ix2 e q') idx 1 + ((segDims N E C wf).window (ix2 e q') 1 : Int)).toNat = q.val :=
        congrArg Fin.val (congrFun hf 1)
      have p0 := (h 0).1
      rw [h0] at v0 p0
      rw [h1] at v1
      refine ⟨?_, Fin.ext (by omega)⟩
      apply BitVec.eq_of_toInt_eq
      rw [toInt_ofNat_small n.val hn]
      omega
    · rintro ⟨hw, rfl⟩
      funext a
      refine Fin.ext ?_
      match a with
      | ⟨0, _⟩ =>
        show ((segDims N E C wf).start (ix2 e q') idx 0 + ((segDims N E C wf).window (ix2 e q') 0 : Int)).toNat = n.val
        rw [h0, hw, toInt_ofNat_small n.val hn]; simp
      | ⟨1, _⟩ =>
        show ((segDims N E C wf).start (ix2 e q') idx 1 + ((segDims N E C wf).window (ix2 e q') 1 : Int)).toNat = q'.val
        rw [h1]; simp
  · rename_i h
    constructor
    · intro hf; cases hf
    · rintro ⟨hw, rfl⟩
      exfalso
      apply h
      refine Fin.forall_fin_two.mpr ⟨?_, ?_⟩
      · rw [h0, hw, toInt_ofNat_small n.val hn, hs0]
        have := n.isLt
        omega
      · rw [h1, hs1]
        have := q'.isLt
        omega

theorem seg_scatterAdd_apply (hN : N < 2 ^ 31) (x : (⟨2, ![N, C]⟩ : Shape).Idx → EReal) (idx : IVec ⟨2, ![E, 1]⟩ 32)
    (upd : (⟨2, ![E, C]⟩ : Shape).Idx → EReal) (n : Fin N) (q : Fin C) :
    Ideal.hostScatterAdd (segDims N E C wf) x idx upd (ix2 n q)
      = x (ix2 n q) + ∑ e : Fin E, if idx (ix2 e (0 : Fin 1)) = BitVec.ofNat 32 n.val then upd (ix2 e q) else 0 := by
  unfold Ideal.hostScatterAdd
  congr 1
  rw [← Finset.sum_filter]
  have key : ∀ j : (⟨2, ![E, C]⟩ : Shape).Idx, (segDims N E C wf).resultIdx? j idx = some (ix2 n q)
      ↔ idx (ix2 (⟨(j 0).val, idx2_lt0 j⟩ : Fin E) (0 : Fin 1)) = BitVec.ofNat 32 n.val
        ∧ (⟨(j 1).val, idx2_lt1 j⟩ : Fin C) = q := by
    intro j
    have := seg_resultIdx_iff wf hN idx (⟨(j 0).val, idx2_lt0 j⟩ : Fin E) (⟨(j 1).val, idx2_lt1 j⟩ : Fin C) q n
    rwa [← eq_ix2_val j] at this
  refine Finset.sum_bij (fun j _ => (⟨(j 0).val, idx2_lt0 j⟩ : Fin E)) ?_ ?_ ?_ ?_
  · intro j hj
    rw [Finset.mem_filter] at hj ⊢
    exact ⟨Finset.mem_univ _, ((key j).mp hj.2).1⟩
  · intro j₁ h₁ j₂ h₂ h
    rw [Finset.mem_filter] at h₁ h₂
    have q₁ := ((key j₁).mp h₁.2).2
    have q₂ := ((key j₂).mp h₂.2).2
    funext a
    match a with
    | ⟨0, _⟩ => exact Fin.ext (congrArg Fin.val h)
    | ⟨1, _⟩ => exact Fin.ext (congrArg Fin.val (q₁.trans q₂.symm))
  · intro e he
    rw [Finset.mem_filter] at he
    refine ⟨ix2 e q, ?_, rfl⟩
    rw [Finset.mem_filter]
    exact ⟨Finset.mem_univ _, (key (ix2 e q)).mpr ⟨he.2, rfl⟩⟩
  · intro j hj
    rw [Finset.mem_filter] at hj
    have hq := ((key j).mp hj.2).2
    show upd j = upd (ix2 (⟨(j 0).val, idx2_lt0 j⟩ : Fin E) q)
    rw [← hq]
    exact congrArg upd (eq_ix2_val j)

end Seg

section Row
variable {N E C : Nat}

abbrev rowDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem gather_row_apply {α : Type} {w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (rowDims N E C wf) x idx (ix2 e q)
      = x (ix2 (⟨min (idx (ix2 e (0 : Fin 1))).toInt.toNat (N - 1), by omega⟩ : Fin N) q) := by
  unfold Host.gather
  congr 1
  funext a
  refine Fin.ext ?_
  match a with
  | ⟨0, _⟩ =>
    show (rowDims N E C wf).start (ix2 e q) idx 0 + (rowDims N E C wf).batchCoord (ix2 e q) 0
      + (rowDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e q) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e q) idx 1 + (rowDims N E C wf).batchCoord (ix2 e q) 1
      + (rowDims N E C wf).offCoord (ix2 e q) 1 = q.val
    rw [GatherDims.batchCoord_eq_zero _ _ _ List.not_mem_nil]
    unfold GatherDims.start
    rw [dif_neg (show ¬ (1 : Fin 2) ∈ (rowDims N E C wf).startIndexMap from
      fun h => absurd (List.mem_singleton.mp h) (show ¬ ((1 : Fin 2) = 0) from by decide))]
    unfold GatherDims.offCoord
    rw [dif_pos (show (1 : Fin 2) ∈ (rowDims N E C wf).sKept from
      (GatherDims.mem_sKept _ _).mpr ⟨fun h => absurd (List.mem_singleton.mp h) (show ¬ ((1 : Fin 2) = 0) from by decide),
        List.not_mem_nil⟩)]
    simp only [Nat.zero_add, Nat.add_zero]
    rfl

end Row

section Stages

open Cert.ReferenceIdeal Cert.ReferenceIdeal.Gen Cert.ReferenceIdeal.Read

variable (ge : S50000x128.Idx → EReal) (ef : S600000x32.Idx → EReal) (w : S1x128.Idx → EReal) (src dst : IVec S600000 32)

theorem wrap_eq (s a : BitVec 32) (hs : s.toNat < 50000) : Scalar.select (IntOp.cmpi .slt s 0#32) a s = s := by
  have hc : ¬ IntOp.cmpi .slt s 0#32 = (1 : BitVec 1) := fun h => by
    have hlt := (slt_iff_toNat (a := s) (b := 0#32) (by omega) (by decide)).mp h
    simp at hlt
  unfold Scalar.select
  rw [if_neg hc]

theorem v5_at (hs : Cert.Spec.SrcOk src) (e : Fin 600000) (k : Fin 1) :
    val_main_v5 (F := Ideal) src (ix2 e k) = src (ix1 e) := by
  rw [val_main_v5_apply, val_main_v4_apply, val_main_v1_apply, val_main_v0_apply, val_main_c_apply]
  have hi : idx_main_v5 (ix2 e k) = ix1 e := by
    funext a; match a with | ⟨0, _⟩ => rfl
  rw [hi]
  exact wrap_eq _ _ (hs e)

theorem v6_at (hs : Cert.Spec.SrcOk src) (e : Fin 600000) (q : Fin 128) :
    val_main_v6 (F := Ideal) ge src (ix2 e q) = ge (ix2 (Cert.Spec.srcRow (src (ix1 e))) q) := by
  show Host.gather (rowDims 50000 600000 128 gather_S50000x128_S600000x1_S600000x128_1_0_n_n_0_1_1128_wf) ge
    (val_main_v5 (F := Ideal) src) (ix2 e q) = _
  rw [gather_row_apply (N := 50000) (E := 600000) (C := 128) (by decide)]
  have hlt := hs e
  refine congrArg (fun r => ge (ix2 r q)) (Fin.ext ?_)
  show min (val_main_v5 (F := Ideal) src (ix2 e (0 : Fin 1))).toInt.toNat (50000 - 1) = (Cert.Spec.srcRow (src (ix1 e))).val
  rw [v5_at src hs e 0]
  unfold Cert.Spec.srcRow
  rw [dif_pos hlt]
  show min (src (ix1 e)).toInt.toNat (50000 - 1) = (src (ix1 e)).toNat
  rw [toInt_eq_toNat_of_lt (by omega)]
  simp only [Int.toNat_natCast]
  omega

theorem v7_at (e : Fin 600000) (q : Fin 128) : val_main_v7 (F := Ideal) w (ix2 e q) = w (ix2 (0 : Fin 1) q) := by
  rw [val_main_v7_apply]
  congr 1
  funext a; match a with | ⟨0, _⟩ => rfl | ⟨1, _⟩ => rfl

theorem v8_at (hs : Cert.Spec.SrcOk src) (e : Fin 600000) (q : Fin 128) :
    val_main_v8 (F := Ideal) ge w src (ix2 e q)
      = ge (ix2 (Cert.Spec.srcRow (src (ix1 e))) q) * w (ix2 (0 : Fin 1) q) := by
  rw [val_main_v8_apply, v6_at ge src hs, v7_at]
  rfl

theorem v9_at (i : S50000x128.Idx) : val_main_v9 (F := Ideal) i = 0 := by
  rw [val_main_v9_apply, val_main_cst_apply]
  exact Ideal.ofBits_zero_f32

theorem v12_at (i : S50000x32.Idx) : val_main_v12 (F := Ideal) i = 0 := by
  rw [val_main_v12_apply, val_main_cst_1_apply]
  exact Ideal.ofBits_zero_f32

theorem v10_at (e : Fin 600000) (k : Fin 1) : val_main_v10 (F := Ideal) dst (ix2 e k) = dst (ix1 e) := by
  rw [val_main_v10_apply]
  congr 1
  funext a; match a with | ⟨0, _⟩ => rfl

theorem v13_at (e : Fin 600000) (k : Fin 1) : val_main_v13 (F := Ideal) dst (ix2 e k) = dst (ix1 e) := by
  rw [val_main_v13_apply]
  congr 1
  funext a; match a with | ⟨0, _⟩ => rfl

theorem scatter128_eq : scatter_S50000x128_S600000x1_S600000x128_1_0_0_1
    = segDims 50000 600000 128 scatter_S50000x128_S600000x1_S600000x128_1_0_0_1_wf := rfl

theorem scatter32_eq : scatter_S50000x32_S600000x1_S600000x32_1_0_0_1
    = segDims 50000 600000 32 scatter_S50000x32_S600000x1_S600000x32_1_0_0_1_wf := rfl

theorem ref_ft_at (hs : Cert.Spec.SrcOk src) (n : Fin 50000) (q : Fin 128) :
    val_main_v11 (F := Ideal) ge w src dst (ix2 n q) = Cert.Spec.refft ge w src dst (ix2 n q) := by
  unfold val_main_v11 Host.scatterAdd
  rw [Ideal.hostScatterAdd_def, scatter128_eq]
  rw [seg_scatterAdd_apply (N := 50000) (E := 600000) (C := 128) scatter_S50000x128_S600000x1_S600000x128_1_0_0_1_wf
    (by norm_num) (val_main_v9 (F := Ideal)) (val_main_v10 (F := Ideal) dst) (val_main_v8 (F := Ideal) ge w src) n q]
  rw [v9_at, zero_add]
  unfold Cert.Spec.refft
  refine Finset.sum_congr rfl fun e _ => ?_
  rw [v10_at, v8_at ge w src hs]

theorem ref_e_at (n : Fin 50000) (q : Fin 32) :
    val_main_v14 (F := Ideal) ef dst (ix2 n q) = Cert.Spec.refe ef dst (ix2 n q) := by
  unfold val_main_v14 Host.scatterAdd
  rw [Ideal.hostScatterAdd_def, scatter32_eq]
  rw [seg_scatterAdd_apply (N := 50000) (E := 600000) (C := 32) scatter_S50000x32_S600000x1_S600000x32_1_0_0_1_wf
    (by norm_num) (val_main_v12 (F := Ideal)) (val_main_v13 (F := Ideal) dst) ef n q]
  rw [v12_at, zero_add]
  unfold Cert.Spec.refe
  refine Finset.sum_congr rfl fun e _ => ?_
  rw [v13_at]

theorem ref_ft (hs : Cert.Spec.SrcOk src) :
    val_main_v11 (F := Ideal) ge w src dst = Cert.Spec.refft ge w src dst := by
  funext y
  obtain ⟨n, q, rfl⟩ : ∃ n q, y = ix2 n q := ⟨_, _, eq_ix2 y⟩
  exact ref_ft_at ge w src dst hs n q

theorem ref_e : val_main_v14 (F := Ideal) ef dst = Cert.Spec.refe ef dst := by
  funext y
  obtain ⟨n, q, rfl⟩ : ∃ n q, y = ix2 n q := ⟨_, _, eq_ix2 y⟩
  exact ref_e_at ef dst n q

end Stages

end Cert.RefValue

end
-- ==== Proof.PreDecode.lean ====
import proofs.«411513_j21534966022316_1_alg».proof.Proof.Gen.Pre_finite_inputs
import proofs.«411513_j21534966022316_1_alg».proof.Proof.Spec
import Idealize.ShloMosaic.Lib.ReduceAll
import Idealize.ShloMosaic.Lib.StableHlo.Predicate
import Idealize.ShloMosaic.Lib.ValueIdx

noncomputable section

namespace Cert.PreDecode

open Idealize.ShloMosaic Idealize.ShloMosaic.ValueIdx
open Cert.Pre_finite_inputs

instance : Subsingleton S_.Idx := ⟨fun a b => funext fun d => d.elim0⟩

theorem inf_eq_top : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) : ∃ r : ℝ, x = (r : EReal) := by
  rw [inf_eq_top] at h
  unfold Ideal.cmp at h
  rw [StableHlo.Predicate.ofBool_eq_one_iff] at h
  have hlt : max x (-x) < ⊤ := of_decide_eq_true h
  induction x using EReal.rec with
  | bot => simp at hlt
  | coe r => exact ⟨r, rfl⟩
  | top => simp at hlt

theorem allReal_of_all {s : Shape} (x : FVec Ideal s .f32) (hb : S_.BroadcastsInDim s (![] : Fin 0 → Fin s.rank))
    {axes : List (Fin s.rank)} (hr : s.ReducesTo axes S_) (h0 : 0 < S_.numel) (init : IVec S_ 1)
    (h : Host.reduce IntOp.andi (cmpf .olt (Host.absf x) (broadcastInDim s ![] hb (constant S_ .f32 0x7F800000#32)))
      init hr h0 ix0 = 1#1) :
    Cert.Spec.AllReal x := fun i =>
  real_of_abs_lt (x i) (Host.reduce_andi_all _ init hr h0 ix0 h i)

theorem lt_of_sge_zero (w : BitVec 32) (h : IntOp.cmpi .sge w 0#32 = 1#1) : w.toNat < 2 ^ 31 := by
  unfold IntOp.cmpi at h
  rw [StableHlo.Predicate.ofBool_eq_one_iff] at h
  have h' : (0#32 : BitVec 32).toInt ≤ w.toInt := of_decide_eq_true h
  have hz : (0#32 : BitVec 32).toInt = 0 := by decide
  rw [hz, BitVec.toInt_eq_toNat_cond] at h'
  have := w.isLt
  split at h' <;> omega

theorem toNat_lt_of_range (w : BitVec 32) (h0 : IntOp.cmpi .sge w 0#32 = 1#1) (h1 : IntOp.cmpi .slt w 50000#32 = 1#1) :
    w.toNat < 50000 :=
  (StableHlo.Predicate.slt_iff_toNat (lt_of_sge_zero w h0) (by decide)).1 h1

theorem of_pre [Cert.Pre_finite_inputs.Facts] (ge : FVec Ideal S50000x128 .f32) (ef : FVec Ideal S600000x32 .f32)
    (w : FVec Ideal S1x128 .f32) (src dst : IVec S600000 32)
    (h : Cert.Pre_finite_inputs.fn (F := Ideal) ge ef w src dst = fun _ => 1#1) :
    Cert.Spec.AllReal ge ∧ Cert.Spec.AllReal ef ∧ Cert.Spec.AllReal w ∧ Cert.Spec.SrcOk src := by
  have e := congrFun h ix0
  dsimp only [Cert.Pre_finite_inputs.fn, Cert.Pre_finite_inputs.fn_part1] at e
  simp only [Idealize.ShloMosaic.andi, IntOp.andi_eq_one] at e
  obtain ⟨⟨⟨⟨hge, hef⟩, hw⟩, hs0⟩, hs1⟩ := e
  refine ⟨allReal_of_all ge _ _ _ _ hge, allReal_of_all ef _ _ _ _ hef, allReal_of_all w _ _ _ _ hw, fun k => ?_⟩
  exact toNat_lt_of_range (src (ix1 k)) (Host.reduce_andi_all _ _ _ _ ix0 hs0 (ix1 k))
    (Host.reduce_andi_all _ _ _ _ ix0 hs1 (ix1 k))

end Cert.PreDecode

end
-- ==== Proof.Claims.lean ====
import proofs.«411513_j21534966022316_1_alg».proof.Defs
import proofs.«411513_j21534966022316_1_alg».proof.Proof.Gen.Kernel
import proofs.«411513_j21534966022316_1_alg».proof.Proof.Gen.KernelIdeal
import proofs.«411513_j21534966022316_1_alg».proof.Proof.Gen.ReferenceIdeal
import proofs.«411513_j21534966022316_1_alg».proof.Proof.Gen.Pre_finite_inputs
import proofs.«411513_j21534966022316_1_alg».proof.Proof.Gen.ReferenceIdeal.Run
import proofs.«411513_j21534966022316_1_alg».proof.Proof.Gen.ReferenceIdeal.Read
import proofs.«411513_j21534966022316_1_alg».proof.Proof.KI.Run
import proofs.«411513_j21534966022316_1_alg».proof.Proof.Bridge
import proofs.«411513_j21534966022316_1_alg».proof.Proof.Ref
import proofs.«411513_j21534966022316_1_alg».proof.Proof.PreDecode

noncomputable section

namespace Cert.Proof.Claims

open Idealize.ShloMosaic Idealize.SL.Sem

/-- The idealization rewrote nothing, so the two kernel programs are one text: label by label the same bodies. -/
theorem defs_eq : Cert.Kernel.defs (F := Bits) = Cert.KernelIdeal.defs (F := Bits) := by
  unfold Cert.Kernel.defs Cert.KernelIdeal.defs Cert.Kernel.defs₀ Cert.KernelIdeal.defs₀
  congr 2
  funext l a
  match l, a with
  | 0, (t, s) => rfl
  | 1, (t, s) => rfl

/-- Hence the word-level frame is the frame of that one text, which is proved at any instance. -/
theorem frame_k : Cert.frame_Kernel := fun m ρ _ => by
  have h := Cert.KernelIdeal.Fr.frame (F := Bits) m ρ
  rw [← defs_eq] at h
  exact h

theorem frame_ki : Cert.frame_KernelIdeal := fun m ρ _ => Cert.KernelIdeal.Fr.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both runs end at the two segment sums side by side; the precondition makes the kernel's the reference's. -/
theorem algebraic : Cert.algebraic_KernelIdeal_ReferenceIdeal := by
  intro m ρ m' ρ' hpre hagree
  refine ⟨_, Cert.KernelIdeal.Fr.run_result m ρ, ?_⟩
  refine (θ_run Cert.ReferenceIdeal.defs _ _).mono (fun _ h c => ⟨(h c).1.trans ?_, (h c).2⟩)
    (Cert.ReferenceIdeal.Value.run (F := Ideal) m' ρ')
  obtain ⟨hge, -, hw, hs⟩ := Cert.PreDecode.of_pre _ _ _ _ _ (hpre c)
  rw [(hagree c).1, (hagree c).2.1, (hagree c).2.2.1, (hagree c).2.2.2.1, (hagree c).2.2.2.2]
  rw [Cert.ReferenceIdeal.Read.val_main_v15_eq]
  unfold Cert.ReferenceIdeal.Read.val_main_v15
  rw [Cert.RefValue.ref_ft _ _ _ _ hs, Cert.RefValue.ref_e]
  rw [Cert.Proof.Bridge.sum_ft m c hge hw hs, Cert.Proof.Bridge.sum_e m c]

theorem preserves : Cert.preserves_Kernel_KernelIdeal := trivial

end Cert.Proof.Claims

end
-- ==== Proof.lean ====
import proofs.«411513_j21534966022316_1_alg».proof.Defs
import proofs.«411513_j21534966022316_1_alg».proof.Proof.Gen.Kernel
import proofs.«411513_j21534966022316_1_alg».proof.Proof.Gen.KernelIdeal
import proofs.«411513_j21534966022316_1_alg».proof.Proof.Gen.ReferenceIdeal
import proofs.«411513_j21534966022316_1_alg».proof.Proof.Gen.Pre_finite_inputs
import proofs.«411513_j21534966022316_1_alg».proof.Proof.Gen.ReferenceIdeal.Run
import proofs.«411513_j21534966022316_1_alg».proof.Proof.Gen.ReferenceIdeal.Read
import proofs.«411513_j21534966022316_1_alg».proof.Proof.Claims
import Idealize.ShloMosaic.Adequacy
import Idealize.ShloMosaic.Init

noncomputable section

namespace Cert.Proof

open Idealize.ShloMosaic Idealize.SL.Sem

/-- The five conjuncts, under the generated witnesses of the programs' stated side conditions. -/
theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic⟩

end Cert.Proof

end
